-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_nce_t" .f32 0x41200000#32 ((134217728 / 13421773 : ℝ) : EReal)
  ∧ IdealRules.named_const.Statement Cert.KernelIdeal.κ "inv_nce_t" .f32 0x41200000#32 ((134217728 / 13421773 : ℝ) : EReal)
  ∧ IdealRules.named_const.Statement Cert.KernelIdeal.κ "inv_nce_t" .f32 0x41200000#32 ((134217728 / 13421773 : ℝ) : EReal)
  ∧ IdealRules.named_const.Statement Cert.KernelIdeal.κ "inv_nce_t" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x1000 : Shape := ⟨2, ![8192, 1000]⟩
abbrev S8192 : Shape := ⟨1, ![8192]⟩
abbrev S_ : Shape := ⟨0, ![]⟩
abbrev S1 : Shape := ⟨1, ![1]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x1000 : S_.BroadcastsInDim S8192x1000 (![] : Fin 0 → Fin S8192x1000.rank)
  reducesTo_S8192x1000_S_d0_1 : S8192x1000.ReducesTo [0, 1] S_
  bcast_S_S8192 : S_.BroadcastsInDim S8192 (![] : Fin 0 → Fin S8192.rank)
  reducesTo_S8192_S_d0 : S8192.ReducesTo [0] S_
  slices_S8192_S1_0 : S8192.Slices ![0] S1
  bcast_S1_S8192_0 : S1.BroadcastsInDim S8192 (![0] : Fin 1 → Fin S8192.rank)

variable [Facts]

def fn_part1 {F : FTy → Type} [FloatOps F] (main_arg4 : IVec S8192 32) (main_v13 : IVec S_ 1) (main_v16 : IVec S8192x1000 1) : IVec S_ 1 :=
  let main_c_5 : IVec S_ 1 := constantI S_ 1 1#1
  let main_v17 : IVec S_ 1 := (fun x v => Host.reduce IntOp.andi x v reducesTo_S8192x1000_S_d0_1 h_S_) main_v16 main_c_5
  let main_v18 : IVec S_ 1 := andi main_v13 main_v17
  let main_c_6 : IVec S_ 32 := constantI S_ 32 0#32
  let main_v19 : IVec S8192 32 := broadcastInDim S8192 ![] bcast_S_S8192 main_c_6
  let main_v20 : IVec S8192 1 := cmpi .sge main_arg4 main_v19
  let main_c_7 : IVec S_ 32 := constantI S_ 32 8192#32
  let main_v21 : IVec S8192 32 := broadcastInDim S8192 ![] bcast_S_S8192 main_c_7
  let main_v22 : IVec S8192 1 := cmpi .slt main_arg4 main_v21
  let main_v23 : IVec S8192 1 := andi main_v20 main_v22
  let main_c_8 : IVec S_ 1 := constantI S_ 1 1#1
  let main_v24 : IVec S_ 1 := (fun x v => Host.reduce IntOp.andi x v reducesTo_S8192_S_d0 h_S_) main_v23 main_c_8
  let main_v25 : IVec S_ 1 := andi main_v18 main_v24
  let main_v26 : IVec S1 32 := (extractStridedSlice S1 ![0] · slices_S8192_S1_0) main_arg4
  let main_v27 : IVec S8192 32 := broadcastInDim S8192 ![0] bcast_S1_S8192_0 main_v26
  let main_v28 : IVec S8192 1 := cmpi .ne main_arg4 main_v27
  let main_c_9 : IVec S_ 1 := constantI S_ 1 0#1
  let main_v29 : IVec S_ 1 := (fun x v => Host.reduce IntOp.ori x v reducesTo_S8192_S_d0 h_S_) main_v28 main_c_9
  let main_v30 : IVec S_ 1 := andi main_v25 main_v29
  main_v30

def fn {F : FTy → Type} [FloatOps F] (main_arg0 : FVec F S8192x128 .f32) (main_arg1 : FVec F S8192x128 .f32) (main_arg2 : FVec F S8192x1000 .f32) (main_arg3 : FVec F S8192x1000 .f32) (main_arg4 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x1000 .f32 := Host.absf main_arg2
  let main_cst_2 : FVec F S_ .f32 := constant S_ .f32 0x7F800000#32
  let main_v10 : FVec F S8192x1000 .f32 := broadcastInDim S8192x1000 ![] bcast_S_S8192x1000 main_cst_2
  let main_v11 : IVec S8192x1000 1 := cmpf .olt main_v9 main_v10
  let main_c_3 : IVec S_ 1 := constantI S_ 1 1#1
  let main_v12 : IVec S_ 1 := (fun x v => Host.reduce IntOp.andi x v reducesTo_S8192x1000_S_d0_1 h_S_) main_v11 main_c_3
  let main_v13 : IVec S_ 1 := andi main_v8 main_v12
  let main_v14 : FVec F S8192x1000 .f32 := Host.absf main_arg3
  let main_cst_4 : FVec F S_ .f32 := constant S_ .f32 0x7F800000#32
  let main_v15 : FVec F S8192x1000 .f32 := broadcastInDim S8192x1000 ![] bcast_S_S8192x1000 main_cst_4
  let main_v16 : IVec S8192x1000 1 := cmpf .olt main_v14 main_v15
  fn_part1 (F := F) main_arg4 main_v13 main_v16
-- ==== Kernel.lean ====
abbrev S8192x128 : Shape := ⟨2, ![8192, 128]⟩
abbrev S8192x1000 : Shape := ⟨2, ![8192, 1000]⟩
abbrev S8192 : Shape := ⟨1, ![8192]⟩
abbrev S2048x128 : Shape := ⟨2, ![2048, 128]⟩
abbrev S2048 : Shape := ⟨1, ![2048]⟩
abbrev S2048x1 : Shape := ⟨2, ![2048, 1]⟩
abbrev S_ : Shape := ⟨0, ![]⟩
abbrev S8192x1 : Shape := ⟨2, ![8192, 1]⟩
abbrev S1x8192 : Shape := ⟨2, ![1, 8192]⟩
abbrev S1024x128 : Shape := ⟨2, ![1024, 128]⟩
abbrev S1024x1 : Shape := ⟨2, ![1024, 1]⟩
abbrev S128x1024 : Shape := ⟨2, ![128, 1024]⟩
abbrev S1024x1024 : Shape := ⟨2, ![1024, 1024]⟩
abbrev S1024 : Shape := ⟨1, ![1024]⟩
abbrev S1x1024 : Shape := ⟨2, ![1, 1024]⟩
abbrev S512x1000 : Shape := ⟨2, ![512, 1000]⟩
abbrev S512x1 : Shape := ⟨2, ![512, 1]⟩
abbrev S512 : Shape := ⟨1, ![512]⟩

abbrev nBuf : Space → Nat
  | .hbm => 82
  | .vmem => 39
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x1000, .f32⟩
  | .hbm, ⟨3, _⟩ => ⟨S8192x1000, .f32⟩
  | .hbm, ⟨4, _⟩ => ⟨S8192, .i32⟩
  | .hbm, ⟨5, _⟩ => ⟨S8192x128, .bf16⟩
  | .hbm, ⟨6, _⟩ => ⟨S8192x128, .bf16⟩
  | .hbm, ⟨7, _⟩ => ⟨S_, .f32⟩
  | .hbm, ⟨8, _⟩ => ⟨S8192, .f32⟩
  | .hbm, ⟨9, _⟩ => ⟨S_, .i32⟩
  | .hbm, ⟨10, _⟩ => ⟨S8192, .i32⟩
  | .hbm, ⟨11, _⟩ => ⟨S8192, .i1⟩
  | .hbm, ⟨12, _⟩ => ⟨S_, .i32⟩
  | .hbm, ⟨13, _⟩ => ⟨S8192, .i32⟩
  | .hbm, ⟨14, _⟩ => ⟨S8192, .i32⟩
  | .hbm, ⟨15, _⟩ => ⟨S8192, .i32⟩
  | .hbm, ⟨16, _⟩ => ⟨S8192x1, .i32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192, .i32⟩
  | .hbm, ⟨27, _⟩ => ⟨S8192x1, .i32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S_, .i32⟩
  | .hbm, ⟨33, _⟩ => ⟨S8192, .i32⟩
  | .hbm, ⟨34, _⟩ => ⟨S8192, .i1⟩
  | .hbm, ⟨35, _⟩ => ⟨S_, .i32⟩
  | .hbm, ⟨36, _⟩ => ⟨S8192, .i32⟩
  | .hbm, ⟨37, _⟩ => ⟨S8192, .i32⟩
  | .hbm, ⟨38, _⟩ => ⟨S8192, .i32⟩
  | .hbm, ⟨39, _⟩ => ⟨S8192x1, .i32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S_, .f32⟩
  | .hbm, ⟨45, _⟩ => ⟨S8192, .f32⟩
  | .hbm, ⟨46, _⟩ => ⟨S8192, .f32⟩
  | .hbm, ⟨47, _⟩ => ⟨S8192x1, .i32⟩
  | .hbm, ⟨48, _⟩ => ⟨S1x8192, .i32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S8192x1, .f32⟩
  | .hbm, ⟨55, _⟩ => ⟨S8192, .f32⟩
  | .hbm, ⟨56, _⟩ => ⟨S8192, .f32⟩
  | .hbm, ⟨57, _⟩ => ⟨S8192, .f32⟩
  | .hbm, ⟨58, _⟩ => ⟨S8192, .f32⟩
  | .hbm, ⟨59, _⟩ => ⟨S8192, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S2048x128, .bf16⟩
  | .local _ .vmem, ⟨3, _⟩ => ⟨S2048x128, .bf16⟩
  | .local _ .vmem, ⟨4, _⟩ => ⟨S2048x128, .f32⟩
  | .local _ .vmem, ⟨5, _⟩ => ⟨S2048x128, .f32⟩
  | .local _ .vmem, ⟨6, _⟩ => ⟨S2048x128, .bf16⟩
  | .local _ .vmem, ⟨7, _⟩ => ⟨S2048x128, .bf16⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S1024x128, .bf16⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x128, .bf16⟩
  | .local _ .vmem, ⟨16, _⟩ => ⟨S1024x128, .bf16⟩
  | .local _ .vmem, ⟨17, _⟩ => ⟨S1024x128, .bf16⟩
  | .local _ .vmem, ⟨18, _⟩ => ⟨S1024x128, .bf16⟩
  | .local _ .vmem, ⟨19, _⟩ => ⟨S1024x1, .f32⟩
  | .local _ .vmem, ⟨20, _⟩ => ⟨S1024x1, .f32⟩
  | .local _ .vmem, ⟨21, _⟩ => ⟨S1024x1, .i32⟩
  | .local _ .vmem, ⟨22, _⟩ => ⟨S1024x1, .i32⟩
  | .local _ .vmem, ⟨23, _⟩ => ⟨S1x1024, .i32⟩
  | .local _ .vmem, ⟨24, _⟩ => ⟨S1x1024, .i32⟩
  | .local _ .vmem, ⟨25, _⟩ => ⟨S1024x1, .f32⟩
  | .local _ .vmem, ⟨26, _⟩ => ⟨S1024x1, .f32⟩
  | .local _ .vmem, ⟨27, _⟩ => ⟨S1024x1, .f32⟩
  | .local _ .vmem, ⟨28, _⟩ => ⟨S1024x1, .f32⟩
  | .local _ .vmem, ⟨29, _⟩ => ⟨S1024x1, .f32⟩
  | .local _ .vmem, ⟨30, _⟩ => ⟨S1024x1, .f32⟩
  | .local _ .vmem, ⟨31, _⟩ => ⟨S512x1000, .f32⟩
  | .local _ .vmem, ⟨32, _⟩ => ⟨S512x1000, .f32⟩
  | .local _ .vmem, ⟨33, _⟩ => ⟨S512x1000, .f32⟩
  | .local _ .vmem, ⟨34, _⟩ => ⟨S512x1000, .f32⟩
  | .local _ .vmem, ⟨35, _⟩ => ⟨S512x1, .f32⟩
  | .local _ .vmem, ⟨36, _⟩ => ⟨S512x1, .f32⟩
  | .local _ .vmem, ⟨37, _⟩ => ⟨S512x1, .f32⟩
  | .local _ .vmem, ⟨38, _⟩ => ⟨S512x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_c_5 : Ref sig .tc := ⟨.hbm, 32, rfl⟩
abbrev main_v20 : Ref sig .tc := ⟨.hbm, 33, rfl⟩
abbrev main_v21 : Ref sig .tc := ⟨.hbm, 34, rfl⟩
abbrev main_c_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_v35 : Ref sig .tc := ⟨.hbm, 52, rfl⟩
abbrev main_v36_0 : Ref sig .tc := ⟨.hbm, 53, rfl⟩
abbrev main_v36_1 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_cst_11 : Ref sig .tc := ⟨.hbm, 62, rfl⟩
abbrev main_v43 : Ref sig .tc := ⟨.hbm, 63, rfl⟩
abbrev main_v44_0 : Ref sig .tc := ⟨.hbm, 64, rfl⟩
abbrev main_v44_1 : Ref sig .tc := ⟨.hbm, 65, rfl⟩
abbrev main_cst_12 : Ref sig .tc := ⟨.hbm, 66, rfl⟩
abbrev main_v45 : Ref sig .tc := ⟨.hbm, 67, rfl⟩
abbrev main_cst_13 : Ref sig .tc := ⟨.hbm, 68, rfl⟩
abbrev main_v46 : Ref sig .tc := ⟨.hbm, 69, rfl⟩
abbrev main_cst_14 : Ref sig .tc := ⟨.hbm, 70, rfl⟩
abbrev main_v47 : Ref sig .tc := ⟨.hbm, 71, rfl⟩
abbrev main_cst_15 : Ref sig .tc := ⟨.hbm, 72, rfl⟩
abbrev main_v48 : Ref sig .tc := ⟨.hbm, 73, rfl⟩
abbrev main_cst_16 : Ref sig .tc := ⟨.hbm, 74, rfl⟩
abbrev main_v49 : Ref sig .tc := ⟨.hbm, 75, rfl⟩
abbrev main_cst_17 : Ref sig .tc := ⟨.hbm, 76, rfl⟩
abbrev main_v50 : Ref sig .tc := ⟨.hbm, 77, rfl⟩
abbrev main_v51 : Ref sig .tc := ⟨.hbm, 78, rfl⟩
abbrev main_cst_18 : Ref sig .tc := ⟨.hbm, 79, rfl⟩
abbrev main_v52 : Ref sig .tc := ⟨.hbm, 80, rfl⟩
abbrev main_v53 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_scratch0 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc3_stg4_0 : Ref sig .tc := ⟨.vmem, 23, rfl⟩
abbrev cc3_stg4_1 : Ref sig .tc := ⟨.vmem, 24, rfl⟩
abbrev cc3_stg5_0 : Ref sig .tc := ⟨.vmem, 25, rfl⟩
abbrev cc3_stg5_1 : Ref sig .tc := ⟨.vmem, 26, rfl⟩
abbrev cc3_stg6_0 : Ref sig .tc := ⟨.vmem, 27, rfl⟩
abbrev cc3_stg6_1 : Ref sig .tc := ⟨.vmem, 28, rfl⟩
abbrev cc3_scratch0 : Ref sig .tc := ⟨.vmem, 29, rfl⟩
abbrev cc3_scratch1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg3_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc3_sem0_0 : DmaSem sig := 14
abbrev cc3_sem0_1 : DmaSem sig := 15
abbrev cc3_sem1_0 : DmaSem sig := 16
abbrev cc3_sem1_1 : DmaSem sig := 17
abbrev cc3_sem2_0 : DmaSem sig := 18
abbrev cc3_sem2_1 : DmaSem sig := 19
abbrev cc3_sem3_0 : DmaSem sig := 20
abbrev cc3_sem3_1 : DmaSem sig := 21
abbrev cc3_sem4_0 : DmaSem sig := 22
abbrev cc3_sem4_1 : DmaSem sig := 23
abbrev cc3_sem5_0 : DmaSem sig := 24
abbrev cc3_sem5_1 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_11 : BitVec 32 := 0#32
  let v23 : BitVec 1 := Scalar.cmpi .ne v22 c0_i32_11
  v23

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![8, 8], ![false, false]⟩

def k3_cond2 (i : grid3.Coords) : BitVec 1 :=
  let arg1 : BitVec 32 := BitVec.ofNat 32 (i 1).val
  let c7_i32 : BitVec 32 := 7#32
  let v53 : BitVec 1 := Scalar.cmpi .eq arg1 c7_i32
  let v54 : BitVec 32 := Scalar.extui v53
  let c0_i32_28 : BitVec 32 := 0#32
  let v55 : BitVec 1 := Scalar.cmpi .ne v54 c0_i32_28
  v55

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S1024x1 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1x1024 .i32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![false, true]

abbrev stage3_5 : Fin 2 → Memref sig .tc .vmem S1024x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 2 → Memref sig .tc .vmem S1024x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1000 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S512x1000 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S512x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S512x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  inb_S2048x128_S2048x128_0_0 : ∀ a, (![0, 0] : Fin 2 → Nat) a + S2048x128.size a ≤ S2048x128.size a
  h_S2048x128 : 0 < S2048x128.numel
  reduces_S2048x128_S2048 : S2048x128.Reduces [1] S2048
  shapeCasts_S2048_S2048x1 : S2048.ShapeCasts S2048x1
  broadcasts_S2048x1_S2048x128 : S2048x1.Broadcasts S2048x128
  bitsLt_bf16_f32 : FTy.bits .bf16 < FTy.bits .f32
  packedbf16_S2048x128_S2048x128_0_0 : (Rect.unit (s := S2048x128) ![0, 0] S2048x128.size inb_S2048x128_S2048x128_0_0).PackedRows (EltTy.packing .bf16)
  bcast_S_S8192 : S_.BroadcastsInDim S8192 (![] : Fin 0 → Fin S8192.rank)
  bcast_S8192_S8192x1_0 : S8192.BroadcastsInDim S8192x1 (![0] : Fin 1 → Fin S8192x1.rank)
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  reduces_S1024x1024_S1024 : S1024x1024.Reduces [1] S1024
  shapeCasts_S1024_S1024x1 : S1024.ShapeCasts S1024x1
  bcast_S_S8192x1 : S_.BroadcastsInDim S8192x1 (![] : Fin 0 → Fin S8192x1.rank)
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x1_S8192 : S8192x1.ShapeCasts S8192
  reducesTo_S8192_S_d0 : S8192.ReducesTo [0] S_
  h_S_ : 0 < S_.numel
  inb_S512x1000_S512x1000_0_0 : ∀ a, (![0, 0] : Fin 2 → Nat) a + S512x1000.size a ≤ S512x1000.size a
  h_S512x1000 : 0 < S512x1000.numel
  reduces_S512x1000_S512 : S512x1000.Reduces [1] S512
  shapeCasts_S512_S512x1 : S512.ShapeCasts S512x1
  broadcasts_S512x1_S512x1000 : S512x1.Broadcasts S512x1000
  inb_S512x1_S512x1_0_0 : ∀ a, (![0, 0] : Fin 2 → Nat) a + S512x1.size a ≤ S512x1.size a
  h_S512x1 : 0 < S512x1.numel
  reducesTo_S8192x1_S_d0_1 : S8192x1.ReducesTo [0, 1] S_
  scatter_S8192_S8192x1_S8192_n_0_0_1_wf : ScatterDims.WF S8192 S8192x1 S8192 [] [0] [0] 1
  gather_S8192_S8192x1_S8192_n_0_n_n_0_1_1_wf : GatherDims.WF S8192 S8192x1 S8192 [] [0] [] [0] [] 1 ![1]
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x128.size a
  hwx0_0 : ∀ i : grid0.Coords, EltTy.bits .f32 = 32 ∨ (Rect.block (s := S8192x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .bf16 = 32 ∨ (Rect.block (s := S8192x128) S2048x128.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S8192x128.size a
  hwx1_0 : ∀ i : grid1.Coords, EltTy.bits .f32 = 32 ∨ (Rect.block (s := S8192x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S8192x128.size a
  hwx1_1 : ∀ i : grid1.Coords, EltTy.bits .bf16 = 32 ∨ (Rect.block (s := S8192x128) S2048x128.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S8192x128.size a
  hwx2_0 : ∀ i : grid2.Coords, EltTy.bits .bf16 = 32 ∨ (Rect.block (s := S8192x128) S1024x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S8192x128.size a
  hwx2_1 : ∀ i : grid2.Coords, EltTy.bits .bf16 = 32 ∨ (Rect.block (s := S8192x128) S1024x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1.size a ≤ S8192x1.size a
  hwx2_2 : ∀ i : grid2.Coords, EltTy.bits .f32 = 32 ∨ (Rect.block (s := S8192x1) S1024x1.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x128.size a ≤ S8192x128.size a
  hwx3_0 : ∀ i : grid3.Coords, EltTy.bits .bf16 = 32 ∨ (Rect.block (s := S8192x128) S1024x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x128.size a ≤ S8192x128.size a
  hwx3_1 : ∀ i : grid3.Coords, EltTy.bits .bf16 = 32 ∨ (Rect.block (s := S8192x128) S1024x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1.size a ≤ S8192x1.size a
  hwx3_2 : ∀ i : grid3.Coords, EltTy.bits .f32 = 32 ∨ (Rect.block (s := S8192x1) S1024x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1.size a ≤ S8192x1.size a
  hwx3_3 : ∀ i : grid3.Coords, EltTy.bits .i32 = 32 ∨ (Rect.block (s := S8192x1) S1024x1.size (cc3_transform_3 i) (hinb3_3 i)).WholeWords (EltTy.packing .i32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x8192.size a
  hwx3_4 : ∀ i : grid3.Coords, EltTy.bits .i32 = 32 ∨ (Rect.block (s := S1x8192) S1x1024.size (cc3_transform_4 i) (hinb3_4 i)).WholeWords (EltTy.packing .i32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1024x1.size a ≤ S8192x1.size a
  hwx3_5 : ∀ i : grid3.Coords, EltTy.bits .f32 = 32 ∨ (Rect.block (s := S8192x1) S1024x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1024x1.size a ≤ S8192x1.size a
  hwx3_6 : ∀ i : grid3.Coords, EltTy.bits .f32 = 32 ∨ (Rect.block (s := S8192x1) S1024x1.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1000.size a ≤ S8192x1000.size a
  hwx4_0 : ∀ i : grid4.Coords, EltTy.bits .f32 = 32 ∨ (Rect.block (s := S8192x1000) S512x1000.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x1000.size a ≤ S8192x1000.size a
  hwx4_1 : ∀ i : grid4.Coords, EltTy.bits .f32 = 32 ∨ (Rect.block (s := S8192x1000) S512x1000.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x1.size a ≤ S8192x1.size a
  hwx4_2 : ∀ i : grid4.Coords, EltTy.bits .f32 = 32 ∨ (Rect.block (s := S8192x1) S512x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1.size a ≤ S8192x1.size a
  hwx4_3 : ∀ i : grid4.Coords, EltTy.bits .f32 = 32 ∨ (Rect.block (s := S8192x1) S512x1.size (cc4_transform_3 i) (hinb4_3 i)).WholeWords (EltTy.packing .f32)

variable [Facts₀]

def scatter_S8192_S8192x1_S8192_n_0_0_1 : ScatterDims S8192 S8192x1 S8192 where
  updateWindowDims := []
  insertedWindowDims := [0]
  scatterDimsToOperandDims := [0]
  indexVectorDim := 1
  wf := scatter_S8192_S8192x1_S8192_n_0_0_1_wf
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v0) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33) S1024x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v0) S1024x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S1024x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v35) S1024x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v31) S1024x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v32) S1x1024.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v36_0) S1024x1.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v36_1) S1024x1.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun i => !(k3_cond2 i == 1#1) | 6 => fun i => !(k3_cond2 i == 1#1) | ⟨_ + 7, h⟩ => absurd h (Nat.not_lt.2 (Nat.le_add_left _ _))

abbrev win4_0 : Pipeline.Window sig grid4 :=
  Pipeline.Window.ofSpec (Memref.whole main_arg2) S512x1000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg3) S512x1000.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v44_0) S512x1.size cc4_transform_2 reads4_2 true false 2 stage4_2 sem4_2
    hrank4 hreads4_2 hinb4_2 nbuf4_2 (Memref.isWhole_whole _) hwx4_2 hstage4_2

abbrev win4_3 : Pipeline.Window sig grid4 :=
  Pipeline.Window.ofSpec (Memref.whole main_v44_1) S512x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S8192x128 : Shape := ⟨2, ![8192, 128]⟩
abbrev S8192x1000 : Shape := ⟨2, ![8192, 1000]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 141
  | .vmem => 0
  | .smem => 0
  | _ => 0

abbrev hbmTy0_0 (i : Nat) : BufTy := match i % 128 with
  | 0 => ⟨S8192x128, .f32⟩
  | 1 => ⟨S8192x128, .f32⟩
  | 2 => ⟨S8192x1000, .f32⟩
  | 3 => ⟨S8192x1000, .f32⟩
  | 4 => ⟨S8192, .i32⟩
  | 5 => ⟨S8192x128, .f32⟩
  | 6 => ⟨S_, .f32⟩
  | 7 => ⟨S8192, .f32⟩
  | 8 => ⟨S8192x1, .f32⟩
  | 9 => ⟨S8192x1, .f32⟩
  | 10 => ⟨S_, .f32⟩
  | 11 => ⟨S8192x1, .f32⟩
  | 12 => ⟨S8192x1, .f32⟩
  | 13 => ⟨S8192x128, .f32⟩
  | 14 => ⟨S8192x128, .f32⟩
  | 15 => ⟨S8192x128, .f32⟩
  | 16 => ⟨S_, .f32⟩
  | 17 => ⟨S8192, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x128, .f32⟩
  | 24 => ⟨S8192x128, .f32⟩
  | 25 => ⟨S8192x1, .i32⟩
  | 26 => ⟨S1x8192, .i32⟩
  | 27 => ⟨S8192x8192, .i32⟩
  | 28 => ⟨S8192x8192, .i32⟩
  | 29 => ⟨S8192x8192, .i1⟩
  | 30 => ⟨S8192x8192, .f32⟩
  | 31 => ⟨S_, .f32⟩
  | 32 => ⟨S8192x8192, .f32⟩
  | 33 => ⟨S8192x8192, .f32⟩
  | 34 => ⟨S128x8192, .f32⟩
  | 35 => ⟨S8192x8192, .f32⟩
  | 36 => ⟨S_, .f32⟩
  | 37 => ⟨S8192x8192, .f32⟩
  | 38 => ⟨S8192x8192, .f32⟩
  | 39 => ⟨S_, .f32⟩
  | 40 => ⟨S8192, .f32⟩
  | 41 => ⟨S_, .f32⟩
  | 42 => ⟨S8192, .f32⟩
  | 43 => ⟨S8192, .f32⟩
  | 44 => ⟨S8192x1, .f32⟩
  | 45 => ⟨S8192x8192, .f32⟩
  | 46 => ⟨S8192x8192, .f32⟩
  | 47 => ⟨S8192x8192, .f32⟩
  | 48 => ⟨S_, .f32⟩
  | 49 => ⟨S8192, .f32⟩
  | 50 => ⟨S8192x1, .f32⟩
  | 51 => ⟨S8192x8192, .f32⟩
  | 52 => ⟨S8192x8192, .f32⟩
  | 53 => ⟨S_, .f32⟩
  | 54 => ⟨S8192x8192, .f32⟩
  | 55 => ⟨S8192x8192, .f32⟩
  | 56 => ⟨S8192x8192, .f32⟩
  | 57 => ⟨S8192x8192, .f32⟩
  | 58 => ⟨S8192x8192, .f32⟩
  | 59 => ⟨S_, .f32⟩
  | 60 => ⟨S8192x8192, .f32⟩
  | 61 => ⟨S8192x8192, .f32⟩
  | 62 => ⟨S_, .f32⟩
  | 63 => ⟨S8192x8192, .f32⟩
  | 64 => ⟨S8192x8192, .f32⟩
  | 65 => ⟨S8192x8192, .f32⟩
  | 66 => ⟨S8192x8192, .f32⟩
  | 67 => ⟨S8192x8192, .f32⟩
  | 68 => ⟨S_, .f32⟩
  | 69 => ⟨S8192, .f32⟩
  | 70 => ⟨S_, .f32⟩
  | 71 => ⟨S8192, .f32⟩
  | 72 => ⟨S8192, .f32⟩
  | 73 => ⟨S_, .f32⟩
  | 74 => ⟨S8192, .f32⟩
  | 75 => ⟨S_, .f32⟩
  | 76 => ⟨S8192, .f32⟩
  | 77 => ⟨S8192, .f32⟩
  | 78 => ⟨S8192, .f32⟩
  | 79 => ⟨S_, .f32⟩
  | 80 => ⟨S_, .f32⟩
  | 81 => ⟨S_, .f32⟩
  | 82 => ⟨S_, .f32⟩
  | 83 => ⟨S_, .f32⟩
  | 84 => ⟨S8192x1000, .f32⟩
  | 85 => ⟨S8192x1000, .f32⟩
  | 86 => ⟨S_, .f32⟩
  | 87 => ⟨S8192, .f32⟩
  | 88 => ⟨S_, .f32⟩
  | 89 => ⟨S8192, .f32⟩
  | 90 => ⟨S8192, .f32⟩
  | 91 => ⟨S8192x1, .f32⟩
  | 92 => ⟨S8192x1000, .f32⟩
  | 93 => ⟨S8192x1000, .f32⟩
  | 94 => ⟨S8192x1000, .f32⟩
  | 95 => ⟨S_, .f32⟩
  | 96 => ⟨S8192, .f32⟩
  | 97 => ⟨S8192x1, .f32⟩
  | 98 => ⟨S8192x1, .f32⟩
  | 99 => ⟨S8192x1000, .f32⟩
  | 100 => ⟨S8192x1000, .f32⟩
  | 101 => ⟨S_, .f32⟩
  | 102 => ⟨S8192x1000, .f32⟩
  | 103 => ⟨S8192x1000, .f32⟩
  | 104 => ⟨S_, .f32⟩
  | 105 => ⟨S8192, .f32⟩
  | 106 => ⟨S_, .f32⟩
  | 107 => ⟨S8192, .f32⟩
  | 108 => ⟨S8192, .f32⟩
  | 109 => ⟨S8192x1, .f32⟩
  | 110 => ⟨S8192x1000, .f32⟩
  | 111 => ⟨S8192x1000, .f32⟩
  | 112 => ⟨S8192x1000, .f32⟩
  | 113 => ⟨S_, .f32⟩
  | 114 => ⟨S8192, .f32⟩
  | 115 => ⟨S8192x1, .f32⟩
  | 116 => ⟨S8192x1, .f32⟩
  | 117 => ⟨S8192x1000, .f32⟩
  | 118 => ⟨S8192x1000, .f32⟩
  | 119 => ⟨S8192x1000, .f32⟩
  | 120 => ⟨S8192x1000, .f32⟩
  | 121 => ⟨S8192x1000, .f32⟩
  | 122 => ⟨S8192x1000, .f32⟩
  | 123 => ⟨S_, .f32⟩
  | 124 => ⟨S_, .f32⟩
  | 125 => ⟨S_, .f32⟩
  | 126 => ⟨S_, .f32⟩
  | 127 => ⟨S_, .f32⟩
  | _ => ⟨S8192x128, .f32⟩

abbrev hbmTy0_1 (i : Nat) : BufTy := match i % 128 with
  | 0 => ⟨S_, .f32⟩
  | 1 => ⟨S8192x1000, .f32⟩
  | 2 => ⟨S8192x1000, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | _ => ⟨S8192x128, .f32⟩

abbrev hbmTy (i : Nat) : BufTy := match i / 128 with
  | 0 => hbmTy0_0 i
  | 1 => hbmTy0_1 i
  | _ => ⟨S8192x128, .f32⟩

abbrev bufTy : (tb : Table) → Fin (tcTables nBuf tb) → BufTy
  | .hbm, ⟨i, _⟩ => hbmTy i
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_11 : Ref sig .tc := ⟨.hbm, 68, rfl⟩
abbrev main_v51 : Ref sig .tc := ⟨.hbm, 69, rfl⟩
abbrev main_cst_12 : Ref sig .tc := ⟨.hbm, 70, rfl⟩
abbrev main_v52 : Ref sig .tc := ⟨.hbm, 71, rfl⟩
abbrev main_v53 : Ref sig .tc := ⟨.hbm, 72, rfl⟩
abbrev main_cst_13 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_15 : Ref sig .tc := ⟨.hbm, 79, rfl⟩
abbrev main_v58 : Ref sig .tc := ⟨.hbm, 80, rfl⟩
abbrev main_cst_16 : Ref sig .tc := ⟨.hbm, 81, rfl⟩
abbrev main_v59 : Ref sig .tc := ⟨.hbm, 82, rfl⟩
abbrev main_cst_17 : Ref sig .tc := ⟨.hbm, 83, rfl⟩
abbrev main_v60 : Ref sig .tc := ⟨.hbm, 84, rfl⟩
abbrev main_v61 : Ref sig .tc := ⟨.hbm, 85, rfl⟩
abbrev main_call0_cst : Ref sig .tc := ⟨.hbm, 86, rfl⟩
abbrev main_call0_v0 : Ref sig .tc := ⟨.hbm, 87, rfl⟩
abbrev main_call0_cst_0 : Ref sig .tc := ⟨.hbm, 88, rfl⟩
abbrev main_call0_v1 : Ref sig .tc := ⟨.hbm, 89, rfl⟩
abbrev main_call0_v2 : Ref sig .tc := ⟨.hbm, 90, rfl⟩
abbrev main_call0_v3 : Ref sig .tc := ⟨.hbm, 91, rfl⟩
abbrev main_call0_v4 : Ref sig .tc := ⟨.hbm, 92, rfl⟩
abbrev main_call0_v5 : Ref sig .tc := ⟨.hbm, 93, rfl⟩
abbrev main_call0_v6 : Ref sig .tc := ⟨.hbm, 94, rfl⟩
abbrev main_call0_cst_1 : Ref sig .tc := ⟨.hbm, 95, rfl⟩
abbrev main_call0_v7 : Ref sig .tc := ⟨.hbm, 96, rfl⟩
abbrev main_call0_v8 : Ref sig .tc := ⟨.hbm, 97, rfl⟩
abbrev main_call0_v9 : Ref sig .tc := ⟨.hbm, 98, rfl⟩
abbrev main_call0_v10 : Ref sig .tc := ⟨.hbm, 99, rfl⟩
abbrev main_v62 : Ref sig .tc := ⟨.hbm, 100, rfl⟩
abbrev main_cst_18 : Ref sig .tc := ⟨.hbm, 101, rfl⟩
abbrev main_v63 : Ref sig .tc := ⟨.hbm, 102, rfl⟩
abbrev main_v64 : Ref sig .tc := ⟨.hbm, 103, rfl⟩
abbrev main_call1_cst : Ref sig .tc := ⟨.hbm, 104, rfl⟩
abbrev main_call1_v0 : Ref sig .tc := ⟨.hbm, 105, rfl⟩
abbrev main_call1_cst_0 : Ref sig .tc := ⟨.hbm, 106, rfl⟩
abbrev main_call1_v1 : Ref sig .tc := ⟨.hbm, 107, rfl⟩
abbrev main_call1_v2 : Ref sig .tc := ⟨.hbm, 108, rfl⟩
abbrev main_call1_v3 : Ref sig .tc := ⟨.hbm, 109, rfl⟩
abbrev main_call1_v4 : Ref sig .tc := ⟨.hbm, 110, rfl⟩
abbrev main_call1_v5 : Ref sig .tc := ⟨.hbm, 111, rfl⟩
abbrev main_call1_v6 : Ref sig .tc := ⟨.hbm, 112, rfl⟩
abbrev main_call1_cst_1 : Ref sig .tc := ⟨.hbm, 113, rfl⟩
abbrev main_call1_v7 : Ref sig .tc := ⟨.hbm, 114, rfl⟩
abbrev main_call1_v8 : Ref sig .tc := ⟨.hbm, 115, rfl⟩
abbrev main_call1_v9 : Ref sig .tc := ⟨.hbm, 116, rfl⟩
abbrev main_call1_v10 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_cst_19 : Ref sig .tc := ⟨.hbm, 123, rfl⟩
abbrev main_v70 : Ref sig .tc := ⟨.hbm, 124, rfl⟩
abbrev main_cst_20 : Ref sig .tc := ⟨.hbm, 125, rfl⟩
abbrev main_v71 : Ref sig .tc := ⟨.hbm, 126, rfl⟩
abbrev main_cst_21 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_cst_22 : Ref sig .tc := ⟨.hbm, 131, rfl⟩
abbrev main_v75 : Ref sig .tc := ⟨.hbm, 132, rfl⟩
abbrev main_cst_23 : Ref sig .tc := ⟨.hbm, 133, rfl⟩
abbrev main_v76 : Ref sig .tc := ⟨.hbm, 134, rfl⟩
abbrev main_cst_24 : Ref sig .tc := ⟨.hbm, 135, rfl⟩
abbrev main_v77 : Ref sig .tc := ⟨.hbm, 136, rfl⟩
abbrev main_v78 : Ref sig .tc := ⟨.hbm, 137, rfl⟩
abbrev main_cst_25 : Ref sig .tc := ⟨.hbm, 138, rfl⟩
abbrev main_v79 : Ref sig .tc := ⟨.hbm, 139, rfl⟩
abbrev main_v80 : Ref sig .tc := ⟨.hbm, 140, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  transposes_S8192x128_S128x8192_1_0 : S8192x128.Transposes [1, 0] S128x8192
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  bcast_S_S8192x1000 : S_.BroadcastsInDim S8192x1000 (![] : Fin 0 → Fin S8192x1000.rank)
  reducesTo_S8192x1000_S8192_d1 : S8192x1000.ReducesTo [1] S8192
  bcast_S8192x1_S8192x1000_0_1 : S8192x1.BroadcastsInDim S8192x1000 (![0, 1] : Fin 2 → Fin S8192x1000.rank)
  reducesTo_S8192x1000_S_d0_1 : S8192x1000.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.K.Reg0.lean ====
import proofs.«425134_j67723044323788_3_alg».proof.Proof.Gen.Kernel.Launch
import proofs.«425134_j67723044323788_3_alg».proof.Proof.Gen.Kernel.Skeleton
import proofs.«425134_j67723044323788_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2048x128 := Rect.unit (s := S2048x128) ![0, 0] S2048x128.size inb_S2048x128_S2048x128_0_0

def out0_1 (x0 : Vec F S2048x128 .f32) : Vec F S2048x128 .bf16 :=
  View.canon [⟨r0_0, k0_pay1 (View.ld x0 r0_0)⟩]

theorem cover0_1 (p0 : Vec F S2048x128 .bf16) (y : S2048x128.Idx) :
    ∃ pc ∈ ([⟨r0_0, p0⟩] : List (View.Piece (Elt F) S2048x128 .bf16)), y ∈ pc.1.set :=
  View.cover_of_tiled [⟨r0_0, p0⟩] S2048x128.size (by rfl) y

set_option maxHeartbeats 1000000 in

theorem sound_kernel0 (c : Dev nD) (E : Set ℕ) (i : grid0.Coords) (arg0 : Memref sig .tc .vmem S2048x128 .f32) (harg0 : arg0.IsWhole) (arg1 : Memref sig .tc .vmem S2048x128 .bf16) (harg1 : arg1.IsWhole)
    (x0 : Vec F S2048x128 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__normalize_kernel i arg0 harg0 arg1 harg1) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  iframe H0
  isplitl [H1]; · iexists _; iexact H1
  iintro ⟨H0, H1⟩
  iframe

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 (F := F) V c).Φ 0 := .rfl

theorem hout0 (c : Dev nD) : (dat0 (F := F) V c).Φ (Fin.last cfg0.N) ⊢ Pipeline.ΦA spec0 c := .rfl

end Cert.Kernel.Hand
-- ==== Proof.K.Reg1.lean ====
import proofs.«425134_j67723044323788_3_alg».proof.Proof.K.Reg0
import proofs.«425134_j67723044323788_3_alg».proof.Proof.Gen.Kernel.Skeleton
import proofs.«425134_j67723044323788_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out0_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out0_1 (iblk1 V c 0 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel0 c Set.univ (grid1.coords t) (st1_0 t) (launch1.stage_whole 0 _) (st1_1 t) (launch1.stage_whole 1 _) (iblk1 V c 0 t) _)
  iframe H0
  isplitl [H1]; · iexists _; iexact H1
  iintro ⟨H0, H1⟩
  iframe

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 (F := F) V c).Φ 0 := .rfl

theorem hout1 (c : Dev nD) : (dat1 (F := F) V c).Φ (Fin.last cfg1.N) ⊢ Pipeline.ΦA spec1 c := .rfl

end Cert.Kernel.Hand
-- ==== Proof.K.Reg2Runs.lean ====
import proofs.«425134_j67723044323788_3_alg».proof.Proof.Gen.Kernel.Launch
import proofs.«425134_j67723044323788_3_alg».proof.Proof.Gen.Kernel.Skeleton
import proofs.«425134_j67723044323788_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

def iblk2 (V : (c : Dev nD) → (b : Ref sig .tc) → Buf (Elt F) ((c : Thread nD τ).loc b)) (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The body's two conditions at a point of the grid: the first holds at the first point of each row, the second at the last. -/
theorem hcond2 : ∀ t : Fin cfg2.N, ((Scalar.cmpi .ne (Scalar.extui (Scalar.cmpi .eq (BitVec.ofNat 32 (grid2.coords t 1).val) 0#32)) 0#32) = 1#1 ↔ t.val % 8 = 0)
    ∧ (k2_cond2 (grid2.coords t) = 1#1 ↔ t.val % 8 = 7) :=
  (by decide +kernel : ∀ t : Fin grid2.N, _)

theorem live2_2 : ∀ t : Fin cfg2.N, t.val % 8 = 7 → cfg2.idle 2 (grid2.coords t) = false := by decide +kernel
theorem idle2_2 : ∀ t : Fin cfg2.N, ¬t.val % 8 = 7 → cfg2.idle 2 (grid2.coords t) = true ∧ (cfg2.win 2).flush t = false := by decide +kernel

abbrev scM2_0 : Memref sig .tc .vmem S1024x1 .f32 := Memref.whole cc2_scratch0

theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

theorem hz2 : (![0, 0] : Fin 2 → Nat) = fun _ => 0 := funext fun a => by fin_cases a <;> rfl

/-- Writing every entry last determines the contents, whatever was there or was written before. -/
theorem read_writes_whole {sg : RefSig} {κ : Kind} {sp : Space} {S : Shape} {e : EltTy} (v : View sg κ sp S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ fun y => ⟨_, List.mem_cons_self .., by subst h; show y ∈ (Rect.whole S).set; rw [Rect.set_whole]; exact Finset.mem_univ y⟩).trans
    (View.canon_cons_unit_zero h inb w L)

set_option maxHeartbeats 750000 in
/-- At a point of the grid the carried column restarts at the first point of a row, takes this point's row sums, and is the output block at the last point of the row. -/
theorem run2 (c : Dev nD) (a2 : Memref sig .tc .vmem S1024x128 .bf16) (h2 : a2.IsWhole) (a3 : Memref sig .tc .vmem S1024x128 .bf16) (h3 : a3.IsWhole)
    (a4 : Memref sig .tc .vmem S1024x1 .f32) (h4 : a4.IsWhole) (a5 : Memref sig .tc .vmem S1024x1 .f32) (h5 : a5.IsWhole)
    (x0 x1 : Vec F S1024x128 .bf16) (xo xs : Vec F S1024x1 .f32) (E : Set ℕ) (K : PUnit → sProp 𝕄) (t : Fin cfg2.N) :
    iprop(owns (c : Thread nD τ) a2 fullShare x0 ∗ owns (c : Thread nD τ) a3 fullShare x1 ∗ owns (c : Thread nD τ) a4 fullShare xo ∗ owns (c : Thread nD τ) a5 fullShare xs
        ∗ (iprop(owns (c : Thread nD τ) a2 fullShare x0 ∗ owns (c : Thread nD τ) a3 fullShare x1
            ∗ owns (c : Thread nD τ) a4 fullShare (if t.val % 8 = 7 then k2_pay2 x0 x1 (if t.val % 8 = 0 then k2_pay1 else xs) else xo)
            ∗ owns (c : Thread nD τ) a5 fullShare (k2_pay2 x0 x1 (if t.val % 8 = 0 then k2_pay1 else xs))) -∗ K ⟨⟩))
      ⊢ wp frame (wpE (defs₀ (F := F)) Variants.none c none) E (cc2__nce_pass1_kernel (grid2.coords t) a2 h2 a3 h3 a4 h4 a5 h5) K := by
  obtain ⟨c0, c1⟩ := hcond2 t
  rcases (by omega : (t.val % 8 = 0 ∧ ¬t.val % 8 = 7) ∨ (¬t.val % 8 = 0 ∧ t.val % 8 = 7) ∨ (¬t.val % 8 = 0 ∧ ¬t.val % 8 = 7)) with ⟨h0, h1⟩ | ⟨h0, h1⟩ | ⟨h0, h1⟩ <;>
  (first | rw [if_pos h0, if_neg h1] | rw [if_neg h0, if_pos h1] | rw [if_neg h0, if_neg h1]) <;>
  (unfold owns
   simp only [cc2__nce_pass1_kernel_eq_skeleton]; unfold cc2__nce_pass1_kernel_skel
   iintro ⟨⟨%f0, %e0, H0⟩, ⟨%f1, %e1, H1⟩, ⟨%f2, %e2, H2⟩, ⟨%f3, %e3, H3⟩, Hk⟩
   obtain rfl := h2.eq_unread e0; obtain rfl := h3.eq_unread e1; obtain rfl := h4.eq_unread e2; obtain rfl := h5.eq_unread e3
   sl_exec (disch := first | exact c0.mpr h0 | exact mt c0.mp h0 | exact c1.mpr h1 | exact mt c1.mp h1)
   sl_step
   iapply Hk
   isplitl [H0]; · iexists _; isplitr; · ipureintro; exact e0
                   iexact H0
   isplitl [H1]; · iexists _; isplitr; · ipureintro; exact e1
                   iexact H1
   isplitl [H2]
   · iexists _; isplitr; swap; · iexact H2
     ipureintro
     first
     | exact e2
     | (sl_unfold_words; rw [read_writes_whole _ _ hz2]
        simp only [View.readAt_eq_ld, e0, e1, e3, View.ld_unit_zero (S := S1024x128) hz2, View.ld_unit_zero (S := S1024x1) hz2, View.readCov_unit_zero (S := S1024x1) _ hz2])
   iexists _; isplitr; swap; · iexact H3
   ipureintro; sl_unfold_words; rw [read_writes_whole _ _ hz2]
   simp only [View.readAt_eq_ld, e0, e1, e3, View.ld_unit_zero (S := S1024x128) hz2, View.ld_unit_zero (S := S1024x1) hz2, View.readCov_unit_zero (S := S1024x1) _ hz2])

end Cert.Kernel.Hand

end
-- ==== Proof.K.Reg2.lean ====
import proofs.«425134_j67723044323788_3_alg».proof.Proof.K.Reg2Runs

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The carried column before point `t`: restarted at the first point of each row of the grid, this point's row sums added at every point. -/
def acc2 (c : Dev nD) : Fin (cfg2.N + 1) → Vec F S1024x1 .f32 :=
  Fin.induction (motive := fun _ => Vec F S1024x1 .f32) k2_pay1 fun t a => k2_pay2 (iblk2 V c 0 t) (iblk2 V c 1 t) (if t.val % 8 = 0 then k2_pay1 else a)

theorem acc2_succ (c : Dev nD) (t : Fin cfg2.N) :
    acc2 V c t.succ = k2_pay2 (iblk2 V c 0 t) (iblk2 V c 1 t) (if t.val % 8 = 0 then k2_pay1 else acc2 V c t.castSucc) :=
  Fin.induction_succ ..

def PhiS2 (c : Dev nD) (t : Fin (cfg2.N + 1)) : sProp 𝕄 :=
  iprop(iprop(iprop(∃ d, ⌜t.val ≠ 0 → d = acc2 V c t⌝ ∗ owns (c : Thread nD τ) scM2_0 fullShare d)
    ∗ Pipeline.scopedRestBut (Ix := Unit) (Name := ℕ) (U := UR sig nD τ) (Lvl := ℕ) (Val := Elt F) spec2 c [cc2_scratch0]) ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.succ
  Φ := PhiS2 V c
  q _ := fullShare
  owed _ := 0

theorem Phi2_eq (c : Dev nD) (t : Fin (cfg2.N + 1)) : (dat2 V c).Φ t = PhiS2 V c t := rfl

theorem A_eq2 (c : Dev nD) (w : Fin cfg2.W) : (dat2 V c).A w = V c (Pipeline.arrRef spec2 w) := by
  dsimp only [dat2]

theorem after2_2 (c : Dev nD) (t : Fin cfg2.N) : (dat2 V c).after 2 t = acc2 V c t.succ := by dsimp only [dat2]

theorem before2 (c : Dev nD) (t : Fin cfg2.N) :
    (∀ d, (dat2 V c).before 0 t d = iblk2 V c 0 t) ∧ ∀ d, (dat2 V c).before 1 t d = iblk2 V c 1 t := by
  constructor <;> intro d <;>
  exact ((dat2 V c).before_in_eq_fetched _ rfl (fun _ => rfl) (fun _ _ _ => rfl) (fun t => by dsimp only [dat2]; unfold Dat.blockOf iblk2; dsimp only [dat2]; try rfl) t d).trans
    (by unfold Dat.fetched Dat.blockOf iblk2; dsimp only [dat2]; try rfl)

theorem leaves2 (c : Dev nD) (w : Fin cfg2.W) (t : Fin cfg2.N) (h : cfg2.idle w (grid2.coords t) = false) :
    (dat2 V c).leavesExact w t = owns (c : Thread nD τ) ((cfg2.win w).stage (cfg2.slots t w)) fullShare ((dat2 V c).after w t) := by
  unfold Dat.leavesExact; rw [h]

theorem sound_body2 (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d)))
    ⊢ wp frame (wpE (defs₀ (F := F)) Variants.none c none) Set.univ (bodyAt2 t) (fun _ =>
      iprop((dat2 V c).Φ t.succ ∗ (dat2 V c).owesAt () t.succ
        ∗ (dat2 V c).leavesExact 0 t ∗ (dat2 V c).leavesExact 1 t ∗ (dat2 V c).leavesExact 2 t)) := by
  unfold bodyAt2
  simp only [(before2 V c t).1, (before2 V c t).2]
  rw [show (dat2 V c).owesAt () t.succ = (dat2 V c).owesAt () t.castSucc from rfl,
    Phi2_eq, Phi2_eq, leaves2 V c 0 t rfl, leaves2 V c 1 t rfl]
  unfold PhiS2
  iintro ⟨⟨⟨⟨%d, %hd, HS⟩, HR⟩, Hg⟩, Ho, ⟨%d0, H0⟩, ⟨%d1, H1⟩, ⟨%d2, H2⟩⟩
  iapply (run2 c _ _ _ _ _ _ _ _ (iblk2 V c 0 t) (iblk2 V c 1 t) _ d Set.univ _ t)
  isplitl [H0]; · iexact H0
  isplitl [H1]; · iexact H1
  isplitl [H2]; · iexact H2
  isplitl [HS]; · iexact HS
  iintro ⟨H0, H1, H2, HS⟩
  have hacc : k2_pay2 (iblk2 V c 0 t) (iblk2 V c 1 t) (if t.val % 8 = 0 then k2_pay1 else d) = acc2 V c t.succ := by
    rw [acc2_succ]
    by_cases h0 : t.val % 8 = 0
    · rw [if_pos h0, if_pos h0]
    · rw [if_neg h0, if_neg h0, hd fun e => h0 (by rw [show t.val = 0 from e])]
  rw [hacc]
  iframe HR Hg Ho
  isplitl [HS]
  · iexists _; isplitr; · ipureintro; exact fun _ => rfl
    iexact HS
  isplitl [H0]; · iexact H0
  isplitl [H1]; · iexact H1
  by_cases h1 : t.val % 8 = 7
  · rw [leaves2 V c 2 t (live2_2 t h1), after2_2, if_pos h1]; iexact H2
  · rw [Dat.leavesExact_idle _ 2 t (idle2_2 t h1).1 (idle2_2 t h1).2, if_neg h1]; iexists _; iexact H2

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [Phi2_eq, PhiA2_eq]; unfold PhiS2
  iintro ⟨⟨⟨%d, HS⟩, HR⟩, Hg⟩
  iframe HR Hg
  iexists d; isplitr; · ipureintro; exact fun h => absurd rfl h
  iexact HS

theorem hout2 (c : Dev nD) : (dat2 V c).Φ (Fin.last cfg2.N) ⊢ Pipeline.ΦA spec2 c := by
  rw [Phi2_eq, PhiA2_eq]; unfold PhiS2
  iintro ⟨⟨⟨%d, -, HS⟩, HR⟩, Hg⟩
  iframe HR Hg
  iexists d; iexact HS

end Cert.Kernel.Hand

end
-- ==== Proof.K.Reg3Runs.lean ====
import proofs.«425134_j67723044323788_3_alg».proof.Proof.Gen.Kernel.Launch
import proofs.«425134_j67723044323788_3_alg».proof.Proof.Gen.Kernel.Skeleton
import proofs.«425134_j67723044323788_3_alg».proof.Proof.Gen.Kernel.Points
import Idealize.ShloMosaic.Lib.Pipeline.FrameBody
import Idealize.ShloMosaic.Lib.Pipeline.TableIdle
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def iblk3 (V : (c : Dev nD) → (b : Ref sig .tc) → Buf (Elt F) ((c : Thread nD τ).loc b)) (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)

abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

theorem idleAt3 : ∀ t : Fin cfg3.N, ¬t.val % 8 = 7 →
    (cfg3.idle 5 (grid3.coords t) = true ∧ (cfg3.win 5).flush t = false) ∧ cfg3.idle 6 (grid3.coords t) = true ∧ (cfg3.win 6).flush t = false := by
  decide +kernel
theorem liveAt3 : ∀ t : Fin cfg3.N, t.val % 8 = 7 → cfg3.idle 5 (grid3.coords t) = false ∧ cfg3.idle 6 (grid3.coords t) = false := by
  decide +kernel

abbrev ms3_0 (t : Fin cfg3.N) : Memref sig .tc .vmem S1024x128 .bf16 := win3_0.stage (cfg3.slots t 0)
abbrev ms3_1 (t : Fin cfg3.N) : Memref sig .tc .vmem S1024x128 .bf16 := win3_1.stage (cfg3.slots t 1)
abbrev ms3_2 (t : Fin cfg3.N) : Memref sig .tc .vmem S1024x1 .f32 := win3_2.stage (cfg3.slots t 2)
abbrev ms3_3 (t : Fin cfg3.N) : Memref sig .tc .vmem S1024x1 .i32 := win3_3.stage (cfg3.slots t 3)
abbrev ms3_4 (t : Fin cfg3.N) : Memref sig .tc .vmem S1x1024 .i32 := win3_4.stage (cfg3.slots t 4)
abbrev ms3_5 (t : Fin cfg3.N) : Memref sig .tc .vmem S1024x1 .f32 := win3_5.stage (cfg3.slots t 5)
abbrev ms3_6 (t : Fin cfg3.N) : Memref sig .tc .vmem S1024x1 .f32 := win3_6.stage (cfg3.slots t 6)
abbrev scM3_0 : Memref sig .tc .vmem S1024x1 .f32 := Memref.whole cc3_scratch0
abbrev scM3_1 : Memref sig .tc .vmem S1024x1 .f32 := Memref.whole cc3_scratch1

theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1])
          ∗ (∃ r, prngReg c r)) := by
  unfold Pipeline.ΦA; rw [scopedRest3_split]; simp only [scM3_0, scM3_1, owns_whole]; try rfl

theorem hz3 : (![0, 0] : Fin 2 → Nat) = fun _ => 0 := funext fun a => by fin_cases a <;> rfl

-- Read back, a list of writes whose last covers the whole shape gives that last payload.
theorem store_eq_rep (c : Dev nD) {sp : Space} {S : Shape} {e : EltTy} (m : Memref sig .tc sp S e) {off : Fin S.rank → ℕ} (h : off = fun _ => 0)
    (inb : ∀ a, off a + S.size a ≤ S.size a) (w : S.Idx → Elt F e) (L : List (View.Piece (Elt F) S e)) (g : Buf (Elt F) (m.view.loc (c : Thread nD τ)))
    (q : PosShare TreeShare) :
    (m.view.loc (c : Thread nD τ) ↦[m.view.set]{q} m.view.writes (Elt F) g (⟨Rect.unit off S.size inb, w⟩ :: L) : sProp 𝕄)
      = (m.view.loc (c : Thread nD τ) ↦[m.view.set]{q} m.view.rep w) := by
  rw [pointsTo_rep, View.read_writes_eq_canon _ _ _ fun y => ⟨_, List.mem_cons_self, View.mem_set_unit_zero h inb y⟩, View.canon_cons_unit_zero h]

theorem readCov_store {sp : Space} {S : Shape} {e : EltTy} (v : View sig .tc sp S e) {off : Fin S.rank → ℕ} (h : off = fun _ => 0) (inb : ∀ a, off a + S.size a ≤ S.size a)
    (w : S.Idx → Elt F e) (L : List (View.Piece (Elt F) S e)) : v.readCov (⟨Rect.unit off S.size inb, w⟩ :: L) (Rect.unit off S.size inb).toLoadRect = w := by
  rw [View.readCov_eq_canon_ld _ _ _ fun y => ⟨_, List.mem_cons_self, View.mem_set_unit_zero h inb y⟩, View.canon_cons_unit_zero h, View.ld_unit_zero h]

section Runs
variable (c : Dev nD) (i : grid3.Coords) (arg2 : Memref sig .tc .vmem S1024x128 .bf16) (harg2 : arg2.IsWhole) (arg3 : Memref sig .tc .vmem S1024x128 .bf16) (harg3 : arg3.IsWhole)
  (arg4 : Memref sig .tc .vmem S1024x1 .f32) (harg4 : arg4.IsWhole) (arg5 : Memref sig .tc .vmem S1024x1 .i32) (harg5 : arg5.IsWhole) (arg6 : Memref sig .tc .vmem S1x1024 .i32) (harg6 : arg6.IsWhole)
  (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
  (arg10 : Memref sig .tc .vmem S1024x1 .f32) (harg10 : arg10.IsWhole)
  (x0 : Vec F S1024x128 .bf16) (x1 : Vec F S1024x128 .bf16) (x2 : Vec F S1024x1 .f32) (x3 : Vec F S1024x1 .i32) (x4 : Vec F S1x1024 .i32)

def ins3 : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3
    ∗ owns (c : Thread nD τ) arg6 fullShare x4)

-- One update of the two running columns a, restarted from zero where `z` holds.
def upd3 (z : Prop) [Decidable z] (a : Vec F S1024x1 .f32 × Vec F S1024x1 .f32) : Vec F S1024x1 .f32 × Vec F S1024x1 .f32 :=
  (k3_pay1 (k3_pay5 x3 x4) (k3_pay6 x0 x1 x2 x3 x4) (if z then k3_pay3 else a.1), k3_pay2 (k3_pay5 x3 x4) (k3_pay6 x0 x1 x2 x3 x4) (if z then k3_pay4 else a.2))

theorem run3 (a b : Vec F S1024x1 .f32 × Vec F S1024x1 .f32) (E : Set ℕ) (K : PUnit → sProp 𝕄) :
    iprop(ins3 c arg2 arg3 arg4 arg5 arg6 x0 x1 x2 x3 x4 ∗ owns (c : Thread nD τ) arg7 fullShare b.1 ∗ owns (c : Thread nD τ) arg8 fullShare b.2
        ∗ owns (c : Thread nD τ) arg9 fullShare a.1 ∗ owns (c : Thread nD τ) arg10 fullShare a.2
        ∗ (iprop(ins3 c arg2 arg3 arg4 arg5 arg6 x0 x1 x2 x3 x4
            ∗ owns (c : Thread nD τ) arg7 fullShare (if cond3_1 i then upd3 x0 x1 x2 x3 x4 (cond3_0 i) a else b).1
            ∗ owns (c : Thread nD τ) arg8 fullShare (if cond3_1 i then upd3 x0 x1 x2 x3 x4 (cond3_0 i) a else b).2
            ∗ owns (c : Thread nD τ) arg9 fullShare (upd3 x0 x1 x2 x3 x4 (cond3_0 i) a).1 ∗ owns (c : Thread nD τ) arg10 fullShare (upd3 x0 x1 x2 x3 x4 (cond3_0 i) a).2) -∗ K ⟨⟩))
      ⊢ wp frame (wpE (defs₀ (F := F)) Variants.none c none) E (cc3__nce_pass2_kernel i arg2 harg2 arg3 harg3 arg4 harg4 arg5 harg5 arg6 harg6 arg7 harg7 arg8 harg8 arg9 harg9 arg10 harg10) K := by
  simp only [cc3__nce_pass2_kernel_eq_skeleton]; unfold cc3__nce_pass2_kernel_skel ins3 upd3
  by_cases hc0 : cond3_0 i <;> by_cases hc1 : cond3_1 i <;> (first | rw [if_pos hc0, if_pos hc0] | rw [if_neg hc0, if_neg hc0]) <;>
  (first | rw [if_pos hc1] | rw [if_neg hc1]) <;>
  ( simp only [owns_eq_rep]
    iintro ⟨⟨H0, H1, H2, H3, H4⟩, H5, H6, HS0, HS1, Hk⟩
    sl_exec (disch := first | exact hc0 | exact hc1)
    sl_step
    sl_unfold_words
    simp only [store_eq_rep (S := S1024x1) c _ hz3, View.readAt_eq_ld, View.read_rep, readCov_store (S := S1024x1) _ hz3, View.ld_unit_zero (S := S1024x128) hz3,
      View.ld_unit_zero (S := S1024x1) hz3, View.ld_unit_zero (S := S1x1024) hz3]
    iapply Hk; iframe )

theorem upd3_congr {z z' : Prop} [Decidable z] [Decidable z'] (hz : z ↔ z') {a a' : Vec F S1024x1 .f32 × Vec F S1024x1 .f32} (ha : ¬z → a = a') :
    upd3 x0 x1 x2 x3 x4 z a = upd3 x0 x1 x2 x3 x4 z' a' := by
  unfold upd3
  by_cases h : z
  · rw [if_pos h, if_pos h, if_pos (hz.mp h), if_pos (hz.mp h)]
  · rw [if_neg h, if_neg h, if_neg (mt hz.mpr h), if_neg (mt hz.mpr h), ha h]

end Runs

end Cert.Kernel.Hand

end
-- ==== Proof.K.Reg3.lean ====
import proofs.«425134_j67723044323788_3_alg».proof.Proof.K.Reg3Runs

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

abbrev upd3At (c : Dev nD) (t : Fin cfg3.N) (z : Prop) [Decidable z] (a : Vec F S1024x1 .f32 × Vec F S1024x1 .f32) : Vec F S1024x1 .f32 × Vec F S1024x1 .f32 :=
  upd3 (iblk3 V c 0 t) (iblk3 V c 1 t) (iblk3 V c 2 t) (iblk3 V c 3 t) (iblk3 V c 4 t) z a

-- The two running columns after point n: one update a point, restarted from zero at the first point of a row.
def acc3 (c : Dev nD) : (n : ℕ) → n < cfg3.N → Vec F S1024x1 .f32 × Vec F S1024x1 .f32
  | 0, h => upd3At V c ⟨0, h⟩ (0 % 8 = 0) (k3_pay3, k3_pay4)
  | n + 1, h => upd3At V c ⟨n + 1, h⟩ ((n + 1) % 8 = 0) (acc3 c n (Nat.lt_of_succ_lt h))

theorem acc3_eq (c : Dev nD) (t : Fin cfg3.N) :
    acc3 V c t.val t.isLt = upd3At V c t (t.val % 8 = 0) (acc3 V c (t.val - 1) (Nat.lt_of_le_of_lt (Nat.sub_le _ _) t.isLt)) := by
  obtain ⟨n, hn⟩ := t
  cases n <;> rfl

def PhiAcc (c : Dev nD) (a : Vec F S1024x1 .f32 × Vec F S1024x1 .f32) : sProp 𝕄 :=
  iprop(iprop(iprop(owns (c : Thread nD τ) scM3_0 fullShare a.1 ∗ owns (c : Thread nD τ) scM3_1 fullShare a.2)
    ∗ Pipeline.scopedRestBut (Ix := Unit) (Name := ℕ) (U := UR sig nD τ) (Lvl := ℕ) (Val := Elt F) spec3 c [cc3_scratch0, cc3_scratch1]) ∗ (∃ r, prngReg c r))

def PhiS3 (c : Dev nD) (n : ℕ) (h : n ≤ cfg3.N) : sProp 𝕄 :=
  iprop(∃ a, ⌜∀ h0 : ¬n % 8 = 0, a = acc3 V c (n - 1) (by omega)⌝ ∗ PhiAcc c a)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (acc3 V c t.val t.isLt).1
    | ⟨6, _⟩ => (acc3 V c t.val t.isLt).2
  Φ t := PhiS3 V c t.val (Nat.le_of_lt_succ t.isLt)
  q _ := fullShare
  owed _ := 0

theorem A_eq3 (c : Dev nD) (w : Fin cfg3.W) : (dat3 V c).A w = V c (Pipeline.arrRef spec3 w) := rfl

theorem before3 (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t)
      ∧ (∀ d, (dat3 V c).before 3 t d = iblk3 V c 3 t) ∧ ∀ d, (dat3 V c).before 4 t d = iblk3 V c 4 t := by
  refine ⟨?_, ?_, ?_, ?_, ?_⟩ <;>
    exact fun d => ((dat3 V c).before_in_eq_fetched _ rfl (fun _ => rfl) (fun _ _ _ => rfl) (fun _ => rfl) t d).trans rfl

theorem leaves3 (c : Dev nD) (t : Fin cfg3.N) (d5 d6) (u : Vec F S1024x1 .f32 × Vec F S1024x1 .f32) (hu : u = acc3 V c t.val t.isLt) :
    iprop(owns (c : Thread nD τ) (ms3_5 t) fullShare (if cond3_1 (grid3.coords t) then u else ((dat3 V c).before 5 t d5, (dat3 V c).before 6 t d6)).1
      ∗ owns (c : Thread nD τ) (ms3_6 t) fullShare (if cond3_1 (grid3.coords t) then u else ((dat3 V c).before 5 t d5, (dat3 V c).before 6 t d6)).2)
    ⊢ iprop((dat3 V c).leavesExact 5 t ∗ (dat3 V c).leavesExact 6 t) := by
  subst hu
  by_cases h1 : t.val % 8 = 7
  · rw [if_pos ((hcond3_1 t).mpr h1)]; unfold Dat.leavesExact; rw [(liveAt3 t h1).1]; exact .rfl
  · rw [if_neg (mt (hcond3_1 t).mp h1), Dat.leavesExact_idle _ 5 t (idleAt3 t h1).1.1 (idleAt3 t h1).1.2, Dat.leavesExact_idle _ 6 t (idleAt3 t h1).2.1 (idleAt3 t h1).2.2]
    iintro ⟨H5, H6⟩
    isplitl [H5] <;> iexists _ <;> iassumption

theorem sound_body3 (c : Dev nD) (t : Fin cfg3.N) :
    iprop(PhiS3 V c t.val (Nat.le_of_lt t.isLt) ∗ (dat3 V c).owesAt () t.castSucc
      ∗ (∃ d, owns (c : Thread nD τ) (ms3_0 t) fullShare ((dat3 V c).before 0 t d))
      ∗ (∃ d, owns (c : Thread nD τ) (ms3_1 t) fullShare ((dat3 V c).before 1 t d))
      ∗ (∃ d, owns (c : Thread nD τ) (ms3_2 t) fullShare ((dat3 V c).before 2 t d))
      ∗ (∃ d, owns (c : Thread nD τ) (ms3_3 t) fullShare ((dat3 V c).before 3 t d))
      ∗ (∃ d, owns (c : Thread nD τ) (ms3_4 t) fullShare ((dat3 V c).before 4 t d))
      ∗ (∃ d, owns (c : Thread nD τ) (ms3_5 t) fullShare ((dat3 V c).before 5 t d))
      ∗ (∃ d, owns (c : Thread nD τ) (ms3_6 t) fullShare ((dat3 V c).before 6 t d)))
    ⊢ wp frame (wpE (defs₀ (F := F)) Variants.none c none) Set.univ (bodyAt3 t) (fun _ =>
      iprop(PhiS3 V c (t.val + 1) t.isLt ∗ (dat3 V c).owesAt () t.castSucc
        ∗ owns (c : Thread nD τ) (ms3_0 t) fullShare (iblk3 V c 0 t) ∗ owns (c : Thread nD τ) (ms3_1 t) fullShare (iblk3 V c 1 t)
        ∗ owns (c : Thread nD τ) (ms3_2 t) fullShare (iblk3 V c 2 t) ∗ owns (c : Thread nD τ) (ms3_3 t) fullShare (iblk3 V c 3 t)
        ∗ owns (c : Thread nD τ) (ms3_4 t) fullShare (iblk3 V c 4 t) ∗ (dat3 V c).leavesExact 5 t ∗ (dat3 V c).leavesExact 6 t)) := by
  simp only [before3 V c t]
  unfold bodyAt3 PhiS3 PhiAcc
  iintro ⟨⟨%a, %ha, ⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
  have eU : upd3At V c t (cond3_0 (grid3.coords t)) a = acc3 V c t.val t.isLt :=
    (upd3_congr _ _ _ _ _ (hcond3_0 t) fun h => ha (mt (hcond3_0 t).mpr h)).trans (acc3_eq V c t).symm
  iapply (run3 c _ _ _ _ _ _ _ _ _ _ _ _ _ _ _ _ _ _ _ (iblk3 V c 0 t) (iblk3 V c 1 t) (iblk3 V c 2 t) (iblk3 V c 3 t) (iblk3 V c 4 t) a ((dat3 V c).before 5 t d5, (dat3 V c).before 6 t d6) Set.univ _)
  unfold ins3
  iframe H0 H1 H2 H3 H4 H5 H6 HS0 HS1
  iintro ⟨⟨H0, H1, H2, H3, H4⟩, H5, H6, HS0, HS1⟩
  iframe Ho H0 H1 H2 H3 H4
  isplitl [HS0 HS1 HR Hg]
  · iexists _; isplitr
    · ipureintro; exact fun _ => eU
    · iframe
  · iapply (leaves3 V c t d5 d6 _ eU); iframe

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [PhiA3_eq]; show _ ⊢ PhiS3 V c 0 (Nat.zero_le _); unfold PhiS3 PhiAcc
  iintro ⟨⟨⟨⟨%d0, H0⟩, ⟨%d1, H1⟩⟩, HR⟩, Hg⟩
  iexists (d0, d1); isplitr
  · ipureintro; exact fun h0 => absurd (Nat.zero_mod 8) h0
  · iframe

theorem hout3 (c : Dev nD) : (dat3 V c).Φ (Fin.last cfg3.N) ⊢ Pipeline.ΦA spec3 c := by
  rw [PhiA3_eq]; show PhiS3 V c cfg3.N (Nat.le_refl _) ⊢ _; unfold PhiS3 PhiAcc
  iintro ⟨%a, %_, ⟨⟨HS0, HS1⟩, HR⟩, Hg⟩
  iframe HR Hg
  isplitl [HS0] <;> iexists _ <;> iassumption

end Region

end Cert.Kernel.Hand

end
-- ==== Proof.K.Reg4.lean ====
import proofs.«425134_j67723044323788_3_alg».proof.Proof.Gen.Kernel.Launch
import proofs.«425134_j67723044323788_3_alg».proof.Proof.Gen.Kernel.Skeleton
import proofs.«425134_j67723044323788_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S512x1000 := Rect.unit (s := S512x1000) ![0, 0] S512x1000.size inb_S512x1000_S512x1000_0_0

abbrev r4_1 : Rect S512x1 := Rect.unit (s := S512x1) ![0, 0] S512x1.size inb_S512x1_S512x1_0_0

def out4_2 (x0 : Vec F S512x1000 .f32) (x1 : Vec F S512x1000 .f32) : Vec F S512x1 .f32 :=
  View.canon [⟨r4_1, k4_pay9 (View.ld x0 r4_0) (View.ld x1 r4_0)⟩]

theorem cover4_2 (p0 : Vec F S512x1 .f32) (y : S512x1.Idx) :
    ∃ pc ∈ ([⟨r4_1, p0⟩] : List (View.Piece (Elt F) S512x1 .f32)), y ∈ pc.1.set :=
  View.cover_of_tiled [⟨r4_1, p0⟩] S512x1.size (by rfl) y

def out4_3 (x0 : Vec F S512x1000 .f32) (x1 : Vec F S512x1000 .f32) : Vec F S512x1 .f32 :=
  View.canon [⟨r4_1, k4_pay10 (View.ld x0 r4_0) (View.ld x1 r4_0)⟩]

theorem cover4_3 (p0 : Vec F S512x1 .f32) (y : S512x1.Idx) :
    ∃ pc ∈ ([⟨r4_1, p0⟩] : List (View.Piece (Elt F) S512x1 .f32)), y ∈ pc.1.set :=
  View.cover_of_tiled [⟨r4_1, p0⟩] S512x1.size (by rfl) y

set_option maxHeartbeats 1000000 in

theorem sound_kernel4 (c : Dev nD) (E : Set ℕ) (i : grid4.Coords)
    (arg1 : Memref sig .tc .vmem S512x1000 .f32) (harg1 : arg1.IsWhole) (arg2 : Memref sig .tc .vmem S512x1000 .f32) (harg2 : arg2.IsWhole)
    (arg3 : Memref sig .tc .vmem S512x1 .f32) (harg3 : arg3.IsWhole) (arg4 : Memref sig .tc .vmem S512x1 .f32) (harg4 : arg4.IsWhole)
    (x0 : Vec F S512x1000 .f32) (x1 : Vec F S512x1000 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out4_2 x0 x1) ∗ owns (c : Thread nD τ) arg4 fullShare (out4_3 x0 x1)) -∗ K ⟨⟩))
      ⊢ wp frame (wpE (defs₀ (F := F)) Variants.none c none) E (cc4__jsd_kernel i arg1 harg1 arg2 harg2 arg3 harg3 arg4 harg4) K := by
  simp only [cc4__jsd_kernel_eq_skeleton]; unfold cc4__jsd_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover4_2 _)
  iexists _; isplitr
  swap; · iexact H3
  ipureintro
  exact View.read_writes_eq_canon _ _ _ (cover4_3 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
    | ⟨3, _⟩ => out4_3 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]
theorem after4_3 (c : Dev nD) (t : Fin cfg4.N) : (dat4 V c).after 3 t = out4_3 (iblk4 V c 0 t) (iblk4 V c 1 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) _)
  iframe H0 H1
  isplitl [H2]; · iexists _; iexact H2
  isplitl [H3]; · iexists _; iexact H3
  iintro ⟨H0, H1, H2, H3⟩
  iframe

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 (F := F) V c).Φ 0 := .rfl

theorem hout4 (c : Dev nD) : (dat4 (F := F) V c).Φ (Fin.last cfg4.N) ⊢ Pipeline.ΦA spec4 c := .rfl

end Cert.Kernel.Hand

end
-- ==== Proof.LibRegionSeg.lean ====
import Idealize.ShloMosaic.Lib.Pipeline.RegionsLoop
import Idealize.ShloMosaic.Lib.Pipeline.FrameSuffix
import Idealize.ShloMosaic.Lib.Tactic

noncomputable section

namespace Cert

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)

variable {nD : Nat} {τ : Topo} {sig : RefSig} {Val : EltTy → Type} {Λ₀ : Labels}

section Exit

variable {cfg : Cfg sig Λ₀} (dat : (c : Dev nD) → Dat τ Val Unit ℕ (UR sig nD τ) ℕ cfg c) (W : Dev nD → Valuation τ sig Val) (c : Dev nD)

/-- `W c` updated at the arrays of `cfg` by the last contents of `dat c`. -/
def exitW : Valuation τ sig Val := Pipeline.withArrays cfg.spec c (W c) fun w => (dat c).arrAt w cfg.N

theorem exitW_arr (hinj : Function.Injective (Pipeline.arrRef cfg.spec)) (w : Fin cfg.W) :
    exitW dat W c (Proc.devRef .tc (Pipeline.arrRef cfg.spec w)) = (dat c).arrAt w cfg.N :=
  Pipeline.withArrays_arr _ hinj c _ _ w

theorem exitW_of_ne (b : Ref sig .tc) (hb : ∀ w, Pipeline.arrRef cfg.spec w ≠ b) :
    exitW dat W c (Proc.devRef .tc b) = W c (Proc.devRef .tc b) :=
  Pipeline.withArrays_of_ne _ c _ _ b hb

/-- `b` is the array of no output window of `cfg`. -/
abbrev NotOut (cfg : Cfg sig Λ₀) (b : Ref sig .tc) : Prop := ∀ w, (cfg.win w).isOut = true → Pipeline.arrRef cfg.spec w ≠ b

/-- At an array of no output window the last contents are the first (`arrAt_in`), which `hA` reads off `W`. -/
theorem exitW_keep (hinj : Function.Injective (Pipeline.arrRef cfg.spec))
    (hA : ∀ w, (dat c).A w = W c (Proc.devRef .tc (Pipeline.arrRef cfg.spec w))) (b : Ref sig .tc) (hb : NotOut cfg b) :
    exitW dat W c (Proc.devRef .tc b) = W c (Proc.devRef .tc b) := by
  by_cases h : ∃ w, Pipeline.arrRef cfg.spec w = b
  · obtain ⟨w, rfl⟩ := h
    rw [exitW_arr dat W c hinj w, (dat c).arrAt_in w (Bool.eq_false_iff.mpr fun hw => hb w hw rfl), hA]
  · exact exitW_of_ne dat W c b fun w e => h ⟨w, e⟩

end Exit

abbrev tstate (c : Dev nD) (V : Valuation τ sig Val) : sProp (MT nD τ sig Unit Val ℕ (UR sig nD τ) ℕ) :=
  iprop(StableHlo.held (c : Thread nD τ) (Pipeline.ucRefs τ sig) V ∗ (∃ r, prngReg c r) ∗ ∃ W, owes (c : Thread nD τ) (0 : CellTallies nD τ sig Unit) W)

variable {P : Type} [Fintype P] (cfgs : P → Cfg sig Λ₀) (pdats : (p : P) → (c : Dev nD) → Dat τ Val Unit ℕ (UR sig nD τ) ℕ (cfgs p) c)
  (defs₀ : Defs nD τ sig Val Λ₀)

/-- One record for every region: they differ only in the index, the entry contents and the two invariant entailments. -/
def regOf {p : P} (Ui : Dev nD → Valuation τ sig Val) (lf : Pipeline.LaunchFacts (nD := nD) (τ := τ) cfgs p)
    (hb : ∀ c, BodyObligation (pdats p c) defs₀ Variants.none () Set.univ)
    (hA : ∀ c w, (pdats p c).A w = Ui c (Proc.devRef .tc (Pipeline.arrRef (cfgs p).spec w)))
    (hΦi : ∀ c, Pipeline.ΦA (cfgs p).spec c ⊢ (pdats p c).Φ 0)
    (hΦo : ∀ c, (pdats p c).Φ (Fin.last (cfgs p).N) ⊢ Pipeline.ΦA (cfgs p).spec c)
    (hq : ∀ c w, (pdats p c).q w = fullShare := by exact fun _ _ => rfl)
    (h0 : ∀ c t, (pdats p c).owed t = 0 := by exact fun _ _ => rfl)
    (hr : ∀ c x, x ∈ (pdats p c).recorded 0 := by exact fun _ _ => trivial) :
    Pipeline.RegionSeg (fun q => (cfgs q).toPCfg (Val := Val)) (fun q => (cfgs q).toPCfg_adm) pdats () defs₀ Variants.none (fun _ => ∅) (fun _ _ => 0) p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ _ _ p h0
  pre c := tstate c (Ui c)
  post c := tstate c (exitW (pdats p) Ui c)
  X c := iprop(∃ r, prngReg c r)
  Y c := iprop(∃ r, prngReg c r)
  Z c := Pipeline.unscopedRest (Ix := Unit) (Name := ℕ) (U := UR sig nD τ) (Lvl := ℕ) (cfgs p).spec c fun b => Ui c b
  hentry c := by
    rw [Pipeline.ownSems0_none]; unfold Pipeline.Dat.owesAt Pipeline.owesWithin Pipeline.prefHeld
    rw [h0, show (Finset.univ : Finset (Fin 0)) = ∅ from rfl, BI.bigSep_empty]
    have hsplit := Pipeline.arrays_of_unscopedBufs (fun q => (cfgs q).toPCfg (Val := Val)) (fun q => (cfgs q).toPCfg_adm) pdats
      lf.win lf.arr_whole c ((pdats p c).share_full (hq c)) (fun b => Ui c b) (hA c)
    rw [Pipeline.unscopedBufs_held] at hsplit
    iintro ⟨⟨Hub, Hp, %W, HO⟩, -, -⟩
    ihave H := hsplit $$ Hub
    icases H with ⟨Ha, Hrest⟩
    imodintro
    isplitl [Ha]; · iexact Ha
    isplitr; · iempintro
    isplitl [HO]
    · iexists W; isplitr; · ipureintro; exact fun x _ => Or.inl (hr c x)
      iexact HO
    isplitl [Hp] <;> iassumption
  hin c := by
    refine .trans ?_ (hΦi c)
    unfold Pipeline.ΦA
    iintro ⟨Hp, -, Hr⟩; isplitl [Hr] <;> iassumption
  hout c := by
    refine (hΦo c).trans ?_
    rw [Pipeline.ownSems0_none]; unfold Pipeline.ΦA
    iintro ⟨Hr, Hp⟩; isplitl [Hp]; · iexact Hp
    isplitr; · iempintro
    iexact Hr
  hexit c := by
    have hjoin := Pipeline.unscopedBufs_of_arrays (fun q => (cfgs q).toPCfg (Val := Val)) (fun q => (cfgs q).toPCfg_adm) (Ix := Unit) (Name := ℕ) (U := UR sig nD τ) (Lvl := ℕ)
      lf.win lf.arr_whole c pdats ((pdats p c).share_full (hq c)) (fun b => Ui c b) (fun b => exitW (pdats p) Ui c b) _
      (fun w => (exitW_arr (pdats p) Ui c lf.win.arr_inj w).symm)
      (fun b hb => exitW_of_ne (pdats p) Ui c b fun w e => hb (Finset.mem_image.mpr ⟨w, Finset.mem_univ _, e⟩))
    rw [Pipeline.unscopedBufs_held] at hjoin
    unfold Pipeline.Dat.owesAt Pipeline.owesWithin; rw [h0]
    iintro ⟨Ha, ⟨%W, -, HO⟩, HY, Hrest⟩
    imodintro
    isplitl [Ha Hrest]
    · iapply hjoin; isplitl [Ha] <;> iassumption
    isplitl [HY]; · iexact HY
    iexists W; iexact HO

/-- A host stretch from the thread state at `W` to the one at `StableHlo.after ops (W c)`. -/
abbrev hostOf (ops : List (HloOp τ sig Val)) (hsub : ops.Forall fun op => op.bufs ⊆ StableHlo.tcRefs τ sig)
    (hfresh : ops.Forall fun op => op.fresh = ∅) (W : Dev nD → Valuation τ sig Val) :
    Pipeline.HostSeg (Ix := Unit) (Name := ℕ) (U := UR sig nD τ) (Lvl := ℕ) (fun q => (cfgs q).toPCfg (Val := Val)) defs₀ Variants.none (fun _ => ∅) (fun _ _ => 0) :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W
    fun c => iprop((∃ r, prngReg c r) ∗ ∃ W, owes (c : Thread nD τ) (0 : CellTallies nD τ sig Unit) W)

set_option backward.isDefEq.respectTransparency.types false in
/-- Segments that chain from the launch memory to `Wn` run to final states that hold `Wn`. -/
theorem run_segs [DecidableEq P] [∀ e, Nonempty (Val e)] (phinj : Function.Injective (Pipeline.cellOf (nD := nD) (τ := τ) cfgs))
    (m : (ℓ : Loc nD τ sig) → Buf Val ℓ) (ρ : Dev nD → PrngReg)
    (main : Dev nD → Prog (TpuEff nD τ sig Val (Pipeline.Sig Λ₀ P fun p => ((cfgs p).toPCfg (Val := Val)).Adm) .tc) PUnit)
    (segs : List (Pipeline.Seg (fun q => (cfgs q).toPCfg (Val := Val)) (fun q => (cfgs q).toPCfg_adm) pdats () defs₀ Variants.none (fun _ => ∅) (fun _ _ => 0)))
    (hmain : ∀ c, main c = Pipeline.Seg.run segs) (hnd : (Pipeline.Seg.pipes segs).Nodup) (Wn : Dev nD → Valuation τ sig Val)
    (hch : Pipeline.Seg.Chains (fun c => tstate c fun b => (s₀ m ρ).mem ((c : Dev nD), b)) segs fun c =>
      iprop((StableHlo.held (c : Thread nD τ) (Pipeline.ucRefs τ sig) (Wn c) ∗ ∃ r, prngReg c r) ∗ ∃ W, owes (c : Thread nD τ) (0 : CellTallies nD τ sig Unit) W)) :
    θ_run (Pipeline.defs (fun q => (cfgs q).toPCfg (Val := Val)) defs₀) (onTc (τ := τ) main) ⟨m, fun _ => 0, ρ⟩ (fun r => ∀ c : Dev nD,
      ∀ b ∈ Pipeline.ucRefs τ sig, r.2.mem ((c : Thread nD τ).1, b) = Wn c b) :=
  Pipeline.θ_run_regions_kit (fun q => (cfgs q).toPCfg (Val := Val)) (fun q => (cfgs q).toPCfg_adm) pdats () phinj emb₁ defs₀ Variants.none (fun _ => ∅) (fun _ _ => 0) m ρ main segs
    (fun c Q => by rw [hmain c])
    hnd
    (O₀ := 0) (hL := fun _ _ => rfl) (G := fun _ => iprop(emp))
    (u₀ := initOf (Pipeline.cells cfgs phinj) (Pipeline.launchToks cfgs phinj))
    (hu₀ := by
      iintro Hu; imodintro
      isplitl [Hu]
      · iapply (show (ownU (initOf (Pipeline.cells cfgs phinj) (Pipeline.launchToks cfgs phinj)) : sProp (MT nD τ sig Unit Val ℕ (UR sig nD τ) ℕ))
            ⊢ BI.own (emb₁ (initOf (Pipeline.cells cfgs phinj) (Pipeline.launchToks cfgs phinj))) from .rfl)
        iexact Hu
      iapply (show (BI.emp : sProp (MT nD τ sig Unit Val ℕ (UR sig nD τ) ℕ)) ⊢ bigSep Finset.univ (fun _ : Dev nD => (BI.emp : sProp (MT nD τ sig Unit Val ℕ (UR sig nD τ) ℕ))) from by rw [BI.bigSep_emp_const])
      iempintro)
    (T₀ := fun c => tstate c fun b => (s₀ m ρ).mem ((c : Dev nD), b))
    (Tₙ := fun c => iprop(StableHlo.held (c : Thread nD τ) (Pipeline.ucRefs τ sig) (Wn c) ∗ ∃ r, prngReg c r))
    (hch := hch)
    (hinit := by
      refine Pipeline.initEach _ _ fun c => ?_
      rw [show unscopedBufs c (fun b => m ((c : Thread nD τ).loc b)) = StableHlo.held (c : Thread nD τ) (Pipeline.ucRefs τ sig) (fun b => (s₀ m ρ).mem ((c : Dev nD), b))
        from Pipeline.unscopedBufs_held c fun b => (s₀ m ρ).mem ((c : Dev nD), b)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wn c b)
    (hfin := fun c s' => by
      iintro ⟨⟨Hh, -⟩, HSI⟩
      unfold StableHlo.held
      imodintro
      iapply (pointsTo_read_all (Pipeline.ucRefs τ sig) (fun b => (((c : Thread nD τ)).1, b)) (Wn c) s')
      isplitl [Hh] <;> iassumption)
    (hQ := fun _ h => h)

end Cert

end
-- ==== Proof.K.Run.lean ====
import proofs.«425134_j67723044323788_3_alg».proof.Proof.K.Reg0
import proofs.«425134_j67723044323788_3_alg».proof.Proof.K.Reg1
import proofs.«425134_j67723044323788_3_alg».proof.Proof.K.Reg2
import proofs.«425134_j67723044323788_3_alg».proof.Proof.K.Reg3
import proofs.«425134_j67723044323788_3_alg».proof.Proof.K.Reg4
import proofs.«425134_j67723044323788_3_alg».proof.Proof.Gen.Kernel.Regions
import proofs.«425134_j67723044323788_3_alg».proof.Proof.LibRegionSeg

noncomputable section

namespace Cert.Kernel.Hand

open Cert.Kernel.Gen
open Idealize.ShloMosaic Idealize.ShloMosaic.TcCoe Idealize.SL.BI
open Idealize.ShloMosaic.Pipeline (Dat)

variable {F : FTy → Type} [FloatOps F]

variable (m : (ℓ : Loc nD τ sig) → Buf (Elt F) ℓ) (ρ : Dev nD → PrngReg)

abbrev rd (W : Dev nD → Valuation τ sig (Elt F)) : (c : Dev nD) → (b : Ref sig .tc) → Buf (Elt F) ((c : Thread nD τ).loc b) :=
  fun c b => W c b

abbrev W0 : Dev nD → Valuation τ sig (Elt F) := fun c b => (s₀ m ρ).mem ((c : Dev nD), b)

def W1 : Dev nD → Valuation τ sig (Elt F) := exitW (dat0 (rd (W0 m ρ))) (W0 m ρ)
theorem W1_keep (c : Dev nD) (b : Ref sig .tc) (hb : NotOut cfg0 b) :
    W1 m ρ c (Proc.devRef .tc b) = W0 m ρ c (Proc.devRef .tc b) :=
  exitW_keep _ _ c launch0.win.arr_inj (A_eq0 _ c) b hb

def W2 : Dev nD → Valuation τ sig (Elt F) := exitW (dat1 (rd (W1 m ρ))) (W1 m ρ)
theorem W2_keep (c : Dev nD) (b : Ref sig .tc) (hb : NotOut cfg1 b) :
    W2 m ρ c (Proc.devRef .tc b) = W1 m ρ c (Proc.devRef .tc b) :=
  exitW_keep _ _ c launch1.win.arr_inj (A_eq1 _ c) b hb

abbrev W3 : Dev nD → Valuation τ sig (Elt F) := fun c => StableHlo.after hostOps2 (W2 m ρ c)
theorem W3_of (c : Dev nD) (r : Ref sig .tc) (h : r ∉ hostOps2_W) : W3 m ρ c r = W2 m ρ c r :=
  StableHlo.after_of_writes_sub hostOps2 _ hostOps2_writes h

def W4 : Dev nD → Valuation τ sig (Elt F) := exitW (dat2 (rd (W3 m ρ))) (W3 m ρ)
theorem W4_keep (c : Dev nD) (b : Ref sig .tc) (hb : NotOut cfg2 b) :
    W4 m ρ c (Proc.devRef .tc b) = W3 m ρ c (Proc.devRef .tc b) :=
  exitW_keep _ _ c launch2.win.arr_inj (A_eq2 _ c) b hb

abbrev W5 : Dev nD → Valuation τ sig (Elt F) := fun c => StableHlo.after hostOps3 (W4 m ρ c)
theorem W5_of (c : Dev nD) (r : Ref sig .tc) (h : r ∉ hostOps3_W) : W5 m ρ c r = W4 m ρ c r :=
  StableHlo.after_of_writes_sub hostOps3 _ hostOps3_writes h

def W6 : Dev nD → Valuation τ sig (Elt F) := exitW (dat3 (rd (W5 m ρ))) (W5 m ρ)
theorem W6_keep (c : Dev nD) (b : Ref sig .tc) (hb : NotOut cfg3 b) :
    W6 m ρ c (Proc.devRef .tc b) = W5 m ρ c (Proc.devRef .tc b) :=
  exitW_keep _ _ c launch3.win.arr_inj (A_eq3 _ c) b hb

abbrev W7 : Dev nD → Valuation τ sig (Elt F) := fun c => StableHlo.after hostOps4 (W6 m ρ c)
theorem W7_of (c : Dev nD) (r : Ref sig .tc) (h : r ∉ hostOps4_W) : W7 m ρ c r = W6 m ρ c r :=
  StableHlo.after_of_writes_sub hostOps4 _ hostOps4_writes h

def W8 : Dev nD → Valuation τ sig (Elt F) := exitW (dat4 (rd (W7 m ρ))) (W7 m ρ)
theorem W8_keep (c : Dev nD) (b : Ref sig .tc) (hb : NotOut cfg4 b) :
    W8 m ρ c (Proc.devRef .tc b) = W7 m ρ c (Proc.devRef .tc b) :=
  exitW_keep _ _ c launch4.win.arr_inj (A_eq4 _ c) b hb

abbrev W9 : Dev nD → Valuation τ sig (Elt F) := fun c => StableHlo.after hostOps5 (W8 m ρ c)
theorem W9_of (c : Dev nD) (r : Ref sig .tc) (h : r ∉ hostOps5_W) : W9 m ρ c r = W8 m ρ c r :=
  StableHlo.after_of_writes_sub hostOps5 _ hostOps5_writes h

theorem W9_launch (c : Dev nD) (b : Ref sig .tc) (hr : ∀ p, NotOut (cfgs p) b)
    (hh : b ∉ hostOps2_W ++ hostOps3_W ++ hostOps4_W ++ hostOps5_W) : W9 m ρ c b = m ((c : Thread nD τ).loc b) := by
  simp only [List.mem_append, not_or] at hh
  rw [W9_of m ρ c b hh.2, W8_keep m ρ c b (hr 4), W7_of m ρ c b hh.1.2, W6_keep m ρ c b (hr 3), W5_of m ρ c b hh.1.1.2,
    W4_keep m ρ c b (hr 2), W3_of m ρ c b hh.1.1.1, W2_keep m ρ c b (hr 1), W1_keep m ρ c b (hr 0)]

theorem W9_main_arg0 (c : Dev nD) : W9 m ρ c (Proc.devRef .tc main_arg0) = m ((c : Thread nD τ).loc main_arg0) := W9_launch m ρ c _ (by decide) (by decide)
theorem W9_main_arg1 (c : Dev nD) : W9 m ρ c (Proc.devRef .tc main_arg1) = m ((c : Thread nD τ).loc main_arg1) := W9_launch m ρ c _ (by decide) (by decide)
theorem W9_main_arg2 (c : Dev nD) : W9 m ρ c (Proc.devRef .tc main_arg2) = m ((c : Thread nD τ).loc main_arg2) := W9_launch m ρ c _ (by decide) (by decide)
theorem W9_main_arg3 (c : Dev nD) : W9 m ρ c (Proc.devRef .tc main_arg3) = m ((c : Thread nD τ).loc main_arg3) := W9_launch m ρ c _ (by decide) (by decide)
theorem W9_main_arg4 (c : Dev nD) : W9 m ρ c (Proc.devRef .tc main_arg4) = m ((c : Thread nD τ).loc main_arg4) := W9_launch m ρ c _ (by decide) (by decide)

def pdats : (p : Fin 5) → (c : Dev nD) → Dat τ (Elt F) Unit ℕ (UR sig nD τ) ℕ (Pipeline.pin (pcfgs (F := F)) adm p) c
  | ⟨0, _⟩ => dat0 (rd (W0 m ρ))
  | ⟨1, _⟩ => dat1 (rd (W1 m ρ))
  | ⟨2, _⟩ => dat2 (rd (W3 m ρ))
  | ⟨3, _⟩ => dat3 (rd (W5 m ρ))
  | ⟨4, _⟩ => dat4 (rd (W7 m ρ))

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev mainSegs : List (Pipeline.Seg (pcfgs (F := F)) adm (pdats m ρ) () defs₀ Variants.none (fun _ => ∅) fun _ _ => 0) :=
  [ .region (regOf cfgs (pdats m ρ) defs₀ (W0 m ρ) launch0 (body_obligation0 _) (A_eq0 _) (hin0 _) (hout0 _)),
    .region (regOf cfgs (pdats m ρ) defs₀ (W1 m ρ) launch1 (body_obligation1 _) (A_eq1 _) (hin1 _) (hout1 _)),
    .host (hostOf cfgs defs₀ hostOps2 hostOps2_sub hostOps2_fresh (W2 m ρ)),
    .region (regOf cfgs (pdats m ρ) defs₀ (W3 m ρ) launch2 (body_obligation2 _) (A_eq2 _) (hin2 _) (hout2 _)),
    .host (hostOf cfgs defs₀ hostOps3 hostOps3_sub hostOps3_fresh (W4 m ρ)),
    .region (regOf cfgs (pdats m ρ) defs₀ (W5 m ρ) launch3 (body_obligation3 _) (A_eq3 _) (hin3 _) (hout3 _)),
    .host (hostOf cfgs defs₀ hostOps4 hostOps4_sub hostOps4_fresh (W6 m ρ)),
    .region (regOf cfgs (pdats m ρ) defs₀ (W7 m ρ) launch4 (body_obligation4 _) (A_eq4 _) (hin4 _) (hout4 _)),
    .host (hostOf cfgs defs₀ hostOps5 hostOps5_sub hostOps5_fresh (W8 m ρ)) ]

theorem main_run (c : Dev nD) : main (F := F) c = Pipeline.Seg.run (mainSegs m ρ) := by
  rw [main_chain c, Pipeline.Seg.run_eq_chain]
  rfl

theorem run_all : θ_run defs (onTc (τ := τ) (main (F := F))) ⟨m, fun _ => 0, ρ⟩ (fun r => ∀ c : Dev nD,
      ∀ b ∈ Pipeline.ucRefs τ sig, r.2.mem ((c : Thread nD τ).1, b) = W9 m ρ c b) :=
  run_segs cfgs (pdats m ρ) defs₀ cellOf_inj m ρ main (mainSegs m ρ) (main_run m ρ)
    (by simp only [mainSegs, Pipeline.Seg.pipes_host, Pipeline.Seg.pipes_region, Pipeline.Seg.pipes_nil]; decide) (W9 m ρ)
    ⟨fun _ => .rfl, fun _ => .rfl, fun _ => .rfl, fun _ => .rfl, fun _ => .rfl, fun _ => .rfl, fun _ => .rfl,
      fun _ => .rfl, fun _ => .rfl, fun _ => sep_assoc'⟩

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c)⟩) (run_all m ρ)

end Cert.Kernel.Hand

end
-- ==== Proof.KI.Reg0.lean ====
import proofs.«425134_j67723044323788_3_alg».proof.Proof.Gen.KernelIdeal.Launch
import proofs.«425134_j67723044323788_3_alg».proof.Proof.Gen.KernelIdeal.Skeleton
import proofs.«425134_j67723044323788_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2048x128 := Rect.unit (s := S2048x128) ![0, 0] S2048x128.size inb_S2048x128_S2048x128_0_0

def out0_1 (x0 : Vec F S2048x128 .f32) : Vec F S2048x128 .bf16 :=
  View.canon [⟨r0_0, k0_pay1 (View.ld x0 r0_0)⟩]

theorem cover0_1 (p0 : Vec F S2048x128 .bf16) (y : S2048x128.Idx) :
    ∃ pc ∈ ([⟨r0_0, p0⟩] : List (View.Piece (Elt F) S2048x128 .bf16)), y ∈ pc.1.set :=
  View.cover_of_tiled [⟨r0_0, p0⟩] S2048x128.size (by rfl) y

set_option maxHeartbeats 1000000 in

theorem sound_kernel0 (c : Dev nD) (E : Set ℕ) (i : grid0.Coords) (arg0 : Memref sig .tc .vmem S2048x128 .f32) (harg0 : arg0.IsWhole) (arg1 : Memref sig .tc .vmem S2048x128 .bf16) (harg1 : arg1.IsWhole)
    (x0 : Vec F S2048x128 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__normalize_kernel i arg0 harg0 arg1 harg1) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  iframe H0
  isplitl [H1]; · iexists _; iexact H1
  iintro ⟨H0, H1⟩
  iframe

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 (F := F) V c).Φ 0 := .rfl

theorem hout0 (c : Dev nD) : (dat0 (F := F) V c).Φ (Fin.last cfg0.N) ⊢ Pipeline.ΦA spec0 c := .rfl

end Cert.KernelIdeal.Hand
-- ==== Proof.KI.Reg1.lean ====
import proofs.«425134_j67723044323788_3_alg».proof.Proof.KI.Reg0
import proofs.«425134_j67723044323788_3_alg».proof.Proof.Gen.KernelIdeal.Skeleton
import proofs.«425134_j67723044323788_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out0_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out0_1 (iblk1 V c 0 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel0 c Set.univ (grid1.coords t) (st1_0 t) (launch1.stage_whole 0 _) (st1_1 t) (launch1.stage_whole 1 _) (iblk1 V c 0 t) _)
  iframe H0
  isplitl [H1]; · iexists _; iexact H1
  iintro ⟨H0, H1⟩
  iframe

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 (F := F) V c).Φ 0 := .rfl

theorem hout1 (c : Dev nD) : (dat1 (F := F) V c).Φ (Fin.last cfg1.N) ⊢ Pipeline.ΦA spec1 c := .rfl

end Cert.KernelIdeal.Hand
-- ==== Proof.KI.Reg2Runs.lean ====
import proofs.«425134_j67723044323788_3_alg».proof.Proof.Gen.KernelIdeal.Launch
import proofs.«425134_j67723044323788_3_alg».proof.Proof.Gen.KernelIdeal.Skeleton
import proofs.«425134_j67723044323788_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

def iblk2 (V : (c : Dev nD) → (b : Ref sig .tc) → Buf (Elt F) ((c : Thread nD τ).loc b)) (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- The body's two conditions at a point of the grid: the first holds at the first point of each row, the second at the last. -/
theorem hcond2 : ∀ t : Fin cfg2.N, ((Scalar.cmpi .ne (Scalar.extui (Scalar.cmpi .eq (BitVec.ofNat 32 (grid2.coords t 1).val) 0#32)) 0#32) = 1#1 ↔ t.val % 8 = 0)
    ∧ (k2_cond2 (grid2.coords t) = 1#1 ↔ t.val % 8 = 7) :=
  (by decide +kernel : ∀ t : Fin grid2.N, _)

theorem live2_2 : ∀ t : Fin cfg2.N, t.val % 8 = 7 → cfg2.idle 2 (grid2.coords t) = false := by decide +kernel
theorem idle2_2 : ∀ t : Fin cfg2.N, ¬t.val % 8 = 7 → cfg2.idle 2 (grid2.coords t) = true ∧ (cfg2.win 2).flush t = false := by decide +kernel

abbrev scM2_0 : Memref sig .tc .vmem S1024x1 .f32 := Memref.whole cc2_scratch0

theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

theorem hz2 : (![0, 0] : Fin 2 → Nat) = fun _ => 0 := funext fun a => by fin_cases a <;> rfl

/-- Writing every entry last determines the contents, whatever was there or was written before. -/
theorem read_writes_whole {sg : RefSig} {κ : Kind} {sp : Space} {S : Shape} {e : EltTy} (v : View sg κ sp S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f (⟨Rect.unit off S.size inb, w⟩ :: L)) = w :=
  (View.read_writes_eq_canon v f _ fun y => ⟨_, List.mem_cons_self .., by subst h; show y ∈ (Rect.whole S).set; rw [Rect.set_whole]; exact Finset.mem_univ y⟩).trans
    (View.canon_cons_unit_zero h inb w L)

set_option maxHeartbeats 750000 in
/-- At a point of the grid the carried column restarts at the first point of a row, takes this point's row sums, and is the output block at the last point of the row. -/
theorem run2 (c : Dev nD) (a2 : Memref sig .tc .vmem S1024x128 .bf16) (h2 : a2.IsWhole) (a3 : Memref sig .tc .vmem S1024x128 .bf16) (h3 : a3.IsWhole)
    (a4 : Memref sig .tc .vmem S1024x1 .f32) (h4 : a4.IsWhole) (a5 : Memref sig .tc .vmem S1024x1 .f32) (h5 : a5.IsWhole)
    (x0 x1 : Vec F S1024x128 .bf16) (xo xs : Vec F S1024x1 .f32) (E : Set ℕ) (K : PUnit → sProp 𝕄) (t : Fin cfg2.N) :
    iprop(owns (c : Thread nD τ) a2 fullShare x0 ∗ owns (c : Thread nD τ) a3 fullShare x1 ∗ owns (c : Thread nD τ) a4 fullShare xo ∗ owns (c : Thread nD τ) a5 fullShare xs
        ∗ (iprop(owns (c : Thread nD τ) a2 fullShare x0 ∗ owns (c : Thread nD τ) a3 fullShare x1
            ∗ owns (c : Thread nD τ) a4 fullShare (if t.val % 8 = 7 then k2_pay2 x0 x1 (if t.val % 8 = 0 then k2_pay1 else xs) else xo)
            ∗ owns (c : Thread nD τ) a5 fullShare (k2_pay2 x0 x1 (if t.val % 8 = 0 then k2_pay1 else xs))) -∗ K ⟨⟩))
      ⊢ wp frame (wpE (defs₀ (F := F)) Variants.none c none) E (cc2__nce_pass1_kernel (grid2.coords t) a2 h2 a3 h3 a4 h4 a5 h5) K := by
  obtain ⟨c0, c1⟩ := hcond2 t
  rcases (by omega : (t.val % 8 = 0 ∧ ¬t.val % 8 = 7) ∨ (¬t.val % 8 = 0 ∧ t.val % 8 = 7) ∨ (¬t.val % 8 = 0 ∧ ¬t.val % 8 = 7)) with ⟨h0, h1⟩ | ⟨h0, h1⟩ | ⟨h0, h1⟩ <;>
  (first | rw [if_pos h0, if_neg h1] | rw [if_neg h0, if_pos h1] | rw [if_neg h0, if_neg h1]) <;>
  (unfold owns
   simp only [cc2__nce_pass1_kernel_eq_skeleton]; unfold cc2__nce_pass1_kernel_skel
   iintro ⟨⟨%f0, %e0, H0⟩, ⟨%f1, %e1, H1⟩, ⟨%f2, %e2, H2⟩, ⟨%f3, %e3, H3⟩, Hk⟩
   obtain rfl := h2.eq_unread e0; obtain rfl := h3.eq_unread e1; obtain rfl := h4.eq_unread e2; obtain rfl := h5.eq_unread e3
   sl_exec (disch := first | exact c0.mpr h0 | exact mt c0.mp h0 | exact c1.mpr h1 | exact mt c1.mp h1)
   sl_step
   iapply Hk
   isplitl [H0]; · iexists _; isplitr; · ipureintro; exact e0
                   iexact H0
   isplitl [H1]; · iexists _; isplitr; · ipureintro; exact e1
                   iexact H1
   isplitl [H2]
   · iexists _; isplitr; swap; · iexact H2
     ipureintro
     first
     | exact e2
     | (sl_unfold_words; rw [read_writes_whole _ _ hz2]
        simp only [View.readAt_eq_ld, e0, e1, e3, View.ld_unit_zero (S := S1024x128) hz2, View.ld_unit_zero (S := S1024x1) hz2, View.readCov_unit_zero (S := S1024x1) _ hz2])
   iexists _; isplitr; swap; · iexact H3
   ipureintro; sl_unfold_words; rw [read_writes_whole _ _ hz2]
   simp only [View.readAt_eq_ld, e0, e1, e3, View.ld_unit_zero (S := S1024x128) hz2, View.ld_unit_zero (S := S1024x1) hz2, View.readCov_unit_zero (S := S1024x1) _ hz2])

end Cert.KernelIdeal.Hand

end
-- ==== Proof.KI.Reg2.lean ====
import proofs.«425134_j67723044323788_3_alg».proof.Proof.KI.Reg2Runs

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The carried column before point `t`: restarted at the first point of each row of the grid, this point's row sums added at every point. -/
def acc2 (c : Dev nD) : Fin (cfg2.N + 1) → Vec F S1024x1 .f32 :=
  Fin.induction (motive := fun _ => Vec F S1024x1 .f32) k2_pay1 fun t a => k2_pay2 (iblk2 V c 0 t) (iblk2 V c 1 t) (if t.val % 8 = 0 then k2_pay1 else a)

theorem acc2_succ (c : Dev nD) (t : Fin cfg2.N) :
    acc2 V c t.succ = k2_pay2 (iblk2 V c 0 t) (iblk2 V c 1 t) (if t.val % 8 = 0 then k2_pay1 else acc2 V c t.castSucc) :=
  Fin.induction_succ ..

def PhiS2 (c : Dev nD) (t : Fin (cfg2.N + 1)) : sProp 𝕄 :=
  iprop(iprop(iprop(∃ d, ⌜t.val ≠ 0 → d = acc2 V c t⌝ ∗ owns (c : Thread nD τ) scM2_0 fullShare d)
    ∗ Pipeline.scopedRestBut (Ix := Unit) (Name := ℕ) (U := UR sig nD τ) (Lvl := ℕ) (Val := Elt F) spec2 c [cc2_scratch0]) ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.succ
  Φ := PhiS2 V c
  q _ := fullShare
  owed _ := 0

theorem Phi2_eq (c : Dev nD) (t : Fin (cfg2.N + 1)) : (dat2 V c).Φ t = PhiS2 V c t := rfl

theorem A_eq2 (c : Dev nD) (w : Fin cfg2.W) : (dat2 V c).A w = V c (Pipeline.arrRef spec2 w) := by
  dsimp only [dat2]

theorem after2_2 (c : Dev nD) (t : Fin cfg2.N) : (dat2 V c).after 2 t = acc2 V c t.succ := by dsimp only [dat2]

theorem before2 (c : Dev nD) (t : Fin cfg2.N) :
    (∀ d, (dat2 V c).before 0 t d = iblk2 V c 0 t) ∧ ∀ d, (dat2 V c).before 1 t d = iblk2 V c 1 t := by
  constructor <;> intro d <;>
  exact ((dat2 V c).before_in_eq_fetched _ rfl (fun _ => rfl) (fun _ _ _ => rfl) (fun t => by dsimp only [dat2]; unfold Dat.blockOf iblk2; dsimp only [dat2]; try rfl) t d).trans
    (by unfold Dat.fetched Dat.blockOf iblk2; dsimp only [dat2]; try rfl)

theorem leaves2 (c : Dev nD) (w : Fin cfg2.W) (t : Fin cfg2.N) (h : cfg2.idle w (grid2.coords t) = false) :
    (dat2 V c).leavesExact w t = owns (c : Thread nD τ) ((cfg2.win w).stage (cfg2.slots t w)) fullShare ((dat2 V c).after w t) := by
  unfold Dat.leavesExact; rw [h]

theorem sound_body2 (c : Dev nD) (t : Fin cfg2.N) :
    iprop((dat2 V c).Φ t.castSucc ∗ (dat2 V c).owesAt () t.castSucc
      ∗ (∃ d, owns (c : Thread nD τ) (st2_0 t) fullShare ((dat2 V c).before 0 t d))
      ∗ (∃ d, owns (c : Thread nD τ) (st2_1 t) fullShare ((dat2 V c).before 1 t d))
      ∗ (∃ d, owns (c : Thread nD τ) (st2_2 t) fullShare ((dat2 V c).before 2 t d)))
    ⊢ wp frame (wpE (defs₀ (F := F)) Variants.none c none) Set.univ (bodyAt2 t) (fun _ =>
      iprop((dat2 V c).Φ t.succ ∗ (dat2 V c).owesAt () t.succ
        ∗ (dat2 V c).leavesExact 0 t ∗ (dat2 V c).leavesExact 1 t ∗ (dat2 V c).leavesExact 2 t)) := by
  unfold bodyAt2
  simp only [(before2 V c t).1, (before2 V c t).2]
  rw [show (dat2 V c).owesAt () t.succ = (dat2 V c).owesAt () t.castSucc from rfl,
    Phi2_eq, Phi2_eq, leaves2 V c 0 t rfl, leaves2 V c 1 t rfl]
  unfold PhiS2
  iintro ⟨⟨⟨⟨%d, %hd, HS⟩, HR⟩, Hg⟩, Ho, ⟨%d0, H0⟩, ⟨%d1, H1⟩, ⟨%d2, H2⟩⟩
  iapply (run2 c _ _ _ _ _ _ _ _ (iblk2 V c 0 t) (iblk2 V c 1 t) _ d Set.univ _ t)
  isplitl [H0]; · iexact H0
  isplitl [H1]; · iexact H1
  isplitl [H2]; · iexact H2
  isplitl [HS]; · iexact HS
  iintro ⟨H0, H1, H2, HS⟩
  have hacc : k2_pay2 (iblk2 V c 0 t) (iblk2 V c 1 t) (if t.val % 8 = 0 then k2_pay1 else d) = acc2 V c t.succ := by
    rw [acc2_succ]
    by_cases h0 : t.val % 8 = 0
    · rw [if_pos h0, if_pos h0]
    · rw [if_neg h0, if_neg h0, hd fun e => h0 (by rw [show t.val = 0 from e])]
  rw [hacc]
  iframe HR Hg Ho
  isplitl [HS]
  · iexists _; isplitr; · ipureintro; exact fun _ => rfl
    iexact HS
  isplitl [H0]; · iexact H0
  isplitl [H1]; · iexact H1
  by_cases h1 : t.val % 8 = 7
  · rw [leaves2 V c 2 t (live2_2 t h1), after2_2, if_pos h1]; iexact H2
  · rw [Dat.leavesExact_idle _ 2 t (idle2_2 t h1).1 (idle2_2 t h1).2, if_neg h1]; iexists _; iexact H2

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [Phi2_eq, PhiA2_eq]; unfold PhiS2
  iintro ⟨⟨⟨%d, HS⟩, HR⟩, Hg⟩
  iframe HR Hg
  iexists d; isplitr; · ipureintro; exact fun h => absurd rfl h
  iexact HS

theorem hout2 (c : Dev nD) : (dat2 V c).Φ (Fin.last cfg2.N) ⊢ Pipeline.ΦA spec2 c := by
  rw [Phi2_eq, PhiA2_eq]; unfold PhiS2
  iintro ⟨⟨⟨%d, -, HS⟩, HR⟩, Hg⟩
  iframe HR Hg
  iexists d; iexact HS

end Cert.KernelIdeal.Hand

end
-- ==== Proof.KI.Reg3Runs.lean ====
import proofs.«425134_j67723044323788_3_alg».proof.Proof.Gen.KernelIdeal.Launch
import proofs.«425134_j67723044323788_3_alg».proof.Proof.Gen.KernelIdeal.Skeleton
import proofs.«425134_j67723044323788_3_alg».proof.Proof.Gen.KernelIdeal.Points
import Idealize.ShloMosaic.Lib.Pipeline.FrameBody
import Idealize.ShloMosaic.Lib.Pipeline.TableIdle
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

def iblk3 (V : (c : Dev nD) → (b : Ref sig .tc) → Buf (Elt F) ((c : Thread nD τ).loc b)) (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 8 = 0 :=
  (by decide +kernel : ∀ t : Fin grid3.N, cond3_0 (grid3.coords t) ↔ t.val % 8 = 0)

abbrev cond3_1 (i : grid3.Coords) : Prop := k3_cond2 i = 1#1
theorem hcond3_1 : ∀ t : Fin cfg3.N, cond3_1 (grid3.coords t) ↔ t.val % 8 = 7 :=
  (by decide +kernel : ∀ t : Fin grid3.N, cond3_1 (grid3.coords t) ↔ t.val % 8 = 7)

theorem idleAt3 : ∀ t : Fin cfg3.N, ¬t.val % 8 = 7 →
    (cfg3.idle 5 (grid3.coords t) = true ∧ (cfg3.win 5).flush t = false) ∧ cfg3.idle 6 (grid3.coords t) = true ∧ (cfg3.win 6).flush t = false := by
  decide +kernel
theorem liveAt3 : ∀ t : Fin cfg3.N, t.val % 8 = 7 → cfg3.idle 5 (grid3.coords t) = false ∧ cfg3.idle 6 (grid3.coords t) = false := by
  decide +kernel

abbrev ms3_0 (t : Fin cfg3.N) : Memref sig .tc .vmem S1024x128 .bf16 := win3_0.stage (cfg3.slots t 0)
abbrev ms3_1 (t : Fin cfg3.N) : Memref sig .tc .vmem S1024x128 .bf16 := win3_1.stage (cfg3.slots t 1)
abbrev ms3_2 (t : Fin cfg3.N) : Memref sig .tc .vmem S1024x1 .f32 := win3_2.stage (cfg3.slots t 2)
abbrev ms3_3 (t : Fin cfg3.N) : Memref sig .tc .vmem S1024x1 .i32 := win3_3.stage (cfg3.slots t 3)
abbrev ms3_4 (t : Fin cfg3.N) : Memref sig .tc .vmem S1x1024 .i32 := win3_4.stage (cfg3.slots t 4)
abbrev ms3_5 (t : Fin cfg3.N) : Memref sig .tc .vmem S1024x1 .f32 := win3_5.stage (cfg3.slots t 5)
abbrev ms3_6 (t : Fin cfg3.N) : Memref sig .tc .vmem S1024x1 .f32 := win3_6.stage (cfg3.slots t 6)
abbrev scM3_0 : Memref sig .tc .vmem S1024x1 .f32 := Memref.whole cc3_scratch0
abbrev scM3_1 : Memref sig .tc .vmem S1024x1 .f32 := Memref.whole cc3_scratch1

theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1])
          ∗ (∃ r, prngReg c r)) := by
  unfold Pipeline.ΦA; rw [scopedRest3_split]; simp only [scM3_0, scM3_1, owns_whole]; try rfl

theorem hz3 : (![0, 0] : Fin 2 → Nat) = fun _ => 0 := funext fun a => by fin_cases a <;> rfl

-- Read back, a list of writes whose last covers the whole shape gives that last payload.
theorem store_eq_rep (c : Dev nD) {sp : Space} {S : Shape} {e : EltTy} (m : Memref sig .tc sp S e) {off : Fin S.rank → ℕ} (h : off = fun _ => 0)
    (inb : ∀ a, off a + S.size a ≤ S.size a) (w : S.Idx → Elt F e) (L : List (View.Piece (Elt F) S e)) (g : Buf (Elt F) (m.view.loc (c : Thread nD τ)))
    (q : PosShare TreeShare) :
    (m.view.loc (c : Thread nD τ) ↦[m.view.set]{q} m.view.writes (Elt F) g (⟨Rect.unit off S.size inb, w⟩ :: L) : sProp 𝕄)
      = (m.view.loc (c : Thread nD τ) ↦[m.view.set]{q} m.view.rep w) := by
  rw [pointsTo_rep, View.read_writes_eq_canon _ _ _ fun y => ⟨_, List.mem_cons_self, View.mem_set_unit_zero h inb y⟩, View.canon_cons_unit_zero h]

theorem readCov_store {sp : Space} {S : Shape} {e : EltTy} (v : View sig .tc sp S e) {off : Fin S.rank → ℕ} (h : off = fun _ => 0) (inb : ∀ a, off a + S.size a ≤ S.size a)
    (w : S.Idx → Elt F e) (L : List (View.Piece (Elt F) S e)) : v.readCov (⟨Rect.unit off S.size inb, w⟩ :: L) (Rect.unit off S.size inb).toLoadRect = w := by
  rw [View.readCov_eq_canon_ld _ _ _ fun y => ⟨_, List.mem_cons_self, View.mem_set_unit_zero h inb y⟩, View.canon_cons_unit_zero h, View.ld_unit_zero h]

section Runs
variable (c : Dev nD) (i : grid3.Coords) (arg2 : Memref sig .tc .vmem S1024x128 .bf16) (harg2 : arg2.IsWhole) (arg3 : Memref sig .tc .vmem S1024x128 .bf16) (harg3 : arg3.IsWhole)
  (arg4 : Memref sig .tc .vmem S1024x1 .f32) (harg4 : arg4.IsWhole) (arg5 : Memref sig .tc .vmem S1024x1 .i32) (harg5 : arg5.IsWhole) (arg6 : Memref sig .tc .vmem S1x1024 .i32) (harg6 : arg6.IsWhole)
  (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
  (arg10 : Memref sig .tc .vmem S1024x1 .f32) (harg10 : arg10.IsWhole)
  (x0 : Vec F S1024x128 .bf16) (x1 : Vec F S1024x128 .bf16) (x2 : Vec F S1024x1 .f32) (x3 : Vec F S1024x1 .i32) (x4 : Vec F S1x1024 .i32)

def ins3 : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3
    ∗ owns (c : Thread nD τ) arg6 fullShare x4)

-- One update of the two running columns a, restarted from zero where `z` holds.
def upd3 (z : Prop) [Decidable z] (a : Vec F S1024x1 .f32 × Vec F S1024x1 .f32) : Vec F S1024x1 .f32 × Vec F S1024x1 .f32 :=
  (k3_pay1 (k3_pay5 x3 x4) (k3_pay6 x0 x1 x2 x3 x4) (if z then k3_pay3 else a.1), k3_pay2 (k3_pay5 x3 x4) (k3_pay6 x0 x1 x2 x3 x4) (if z then k3_pay4 else a.2))

theorem run3 (a b : Vec F S1024x1 .f32 × Vec F S1024x1 .f32) (E : Set ℕ) (K : PUnit → sProp 𝕄) :
    iprop(ins3 c arg2 arg3 arg4 arg5 arg6 x0 x1 x2 x3 x4 ∗ owns (c : Thread nD τ) arg7 fullShare b.1 ∗ owns (c : Thread nD τ) arg8 fullShare b.2
        ∗ owns (c : Thread nD τ) arg9 fullShare a.1 ∗ owns (c : Thread nD τ) arg10 fullShare a.2
        ∗ (iprop(ins3 c arg2 arg3 arg4 arg5 arg6 x0 x1 x2 x3 x4
            ∗ owns (c : Thread nD τ) arg7 fullShare (if cond3_1 i then upd3 x0 x1 x2 x3 x4 (cond3_0 i) a else b).1
            ∗ owns (c : Thread nD τ) arg8 fullShare (if cond3_1 i then upd3 x0 x1 x2 x3 x4 (cond3_0 i) a else b).2
            ∗ owns (c : Thread nD τ) arg9 fullShare (upd3 x0 x1 x2 x3 x4 (cond3_0 i) a).1 ∗ owns (c : Thread nD τ) arg10 fullShare (upd3 x0 x1 x2 x3 x4 (cond3_0 i) a).2) -∗ K ⟨⟩))
      ⊢ wp frame (wpE (defs₀ (F := F)) Variants.none c none) E (cc3__nce_pass2_kernel i arg2 harg2 arg3 harg3 arg4 harg4 arg5 harg5 arg6 harg6 arg7 harg7 arg8 harg8 arg9 harg9 arg10 harg10) K := by
  simp only [cc3__nce_pass2_kernel_eq_skeleton]; unfold cc3__nce_pass2_kernel_skel ins3 upd3
  by_cases hc0 : cond3_0 i <;> by_cases hc1 : cond3_1 i <;> (first | rw [if_pos hc0, if_pos hc0] | rw [if_neg hc0, if_neg hc0]) <;>
  (first | rw [if_pos hc1] | rw [if_neg hc1]) <;>
  ( simp only [owns_eq_rep]
    iintro ⟨⟨H0, H1, H2, H3, H4⟩, H5, H6, HS0, HS1, Hk⟩
    sl_exec (disch := first | exact hc0 | exact hc1)
    sl_step
    sl_unfold_words
    simp only [store_eq_rep (S := S1024x1) c _ hz3, View.readAt_eq_ld, View.read_rep, readCov_store (S := S1024x1) _ hz3, View.ld_unit_zero (S := S1024x128) hz3,
      View.ld_unit_zero (S := S1024x1) hz3, View.ld_unit_zero (S := S1x1024) hz3]
    iapply Hk; iframe )

theorem upd3_congr {z z' : Prop} [Decidable z] [Decidable z'] (hz : z ↔ z') {a a' : Vec F S1024x1 .f32 × Vec F S1024x1 .f32} (ha : ¬z → a = a') :
    upd3 x0 x1 x2 x3 x4 z a = upd3 x0 x1 x2 x3 x4 z' a' := by
  unfold upd3
  by_cases h : z
  · rw [if_pos h, if_pos h, if_pos (hz.mp h), if_pos (hz.mp h)]
  · rw [if_neg h, if_neg h, if_neg (mt hz.mpr h), if_neg (mt hz.mpr h), ha h]

end Runs

end Cert.KernelIdeal.Hand

end
-- ==== Proof.KI.Reg3.lean ====
import proofs.«425134_j67723044323788_3_alg».proof.Proof.KI.Reg3Runs

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region
variable (V : (c : Dev nD) → (b : Ref sig .tc) → Buf (Elt F) ((c : Thread nD τ).loc b))

abbrev upd3At (c : Dev nD) (t : Fin cfg3.N) (z : Prop) [Decidable z] (a : Vec F S1024x1 .f32 × Vec F S1024x1 .f32) : Vec F S1024x1 .f32 × Vec F S1024x1 .f32 :=
  upd3 (iblk3 V c 0 t) (iblk3 V c 1 t) (iblk3 V c 2 t) (iblk3 V c 3 t) (iblk3 V c 4 t) z a

-- The two running columns after point n: one update a point, restarted from zero at the first point of a row.
def acc3 (c : Dev nD) : (n : ℕ) → n < cfg3.N → Vec F S1024x1 .f32 × Vec F S1024x1 .f32
  | 0, h => upd3At V c ⟨0, h⟩ (0 % 8 = 0) (k3_pay3, k3_pay4)
  | n + 1, h => upd3At V c ⟨n + 1, h⟩ ((n + 1) % 8 = 0) (acc3 c n (Nat.lt_of_succ_lt h))

theorem acc3_eq (c : Dev nD) (t : Fin cfg3.N) :
    acc3 V c t.val t.isLt = upd3At V c t (t.val % 8 = 0) (acc3 V c (t.val - 1) (Nat.lt_of_le_of_lt (Nat.sub_le _ _) t.isLt)) := by
  obtain ⟨n, hn⟩ := t
  cases n <;> rfl

def PhiAcc (c : Dev nD) (a : Vec F S1024x1 .f32 × Vec F S1024x1 .f32) : sProp 𝕄 :=
  iprop(iprop(iprop(owns (c : Thread nD τ) scM3_0 fullShare a.1 ∗ owns (c : Thread nD τ) scM3_1 fullShare a.2)
    ∗ Pipeline.scopedRestBut (Ix := Unit) (Name := ℕ) (U := UR sig nD τ) (Lvl := ℕ) (Val := Elt F) spec3 c [cc3_scratch0, cc3_scratch1]) ∗ (∃ r, prngReg c r))

def PhiS3 (c : Dev nD) (n : ℕ) (h : n ≤ cfg3.N) : sProp 𝕄 :=
  iprop(∃ a, ⌜∀ h0 : ¬n % 8 = 0, a = acc3 V c (n - 1) (by omega)⌝ ∗ PhiAcc c a)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (acc3 V c t.val t.isLt).1
    | ⟨6, _⟩ => (acc3 V c t.val t.isLt).2
  Φ t := PhiS3 V c t.val (Nat.le_of_lt_succ t.isLt)
  q _ := fullShare
  owed _ := 0

theorem A_eq3 (c : Dev nD) (w : Fin cfg3.W) : (dat3 V c).A w = V c (Pipeline.arrRef spec3 w) := rfl

theorem before3 (c : Dev nD) (t : Fin cfg3.N) :
    (∀ d, (dat3 V c).before 0 t d = iblk3 V c 0 t) ∧ (∀ d, (dat3 V c).before 1 t d = iblk3 V c 1 t) ∧ (∀ d, (dat3 V c).before 2 t d = iblk3 V c 2 t)
      ∧ (∀ d, (dat3 V c).before 3 t d = iblk3 V c 3 t) ∧ ∀ d, (dat3 V c).before 4 t d = iblk3 V c 4 t := by
  refine ⟨?_, ?_, ?_, ?_, ?_⟩ <;>
    exact fun d => ((dat3 V c).before_in_eq_fetched _ rfl (fun _ => rfl) (fun _ _ _ => rfl) (fun _ => rfl) t d).trans rfl

theorem leaves3 (c : Dev nD) (t : Fin cfg3.N) (d5 d6) (u : Vec F S1024x1 .f32 × Vec F S1024x1 .f32) (hu : u = acc3 V c t.val t.isLt) :
    iprop(owns (c : Thread nD τ) (ms3_5 t) fullShare (if cond3_1 (grid3.coords t) then u else ((dat3 V c).before 5 t d5, (dat3 V c).before 6 t d6)).1
      ∗ owns (c : Thread nD τ) (ms3_6 t) fullShare (if cond3_1 (grid3.coords t) then u else ((dat3 V c).before 5 t d5, (dat3 V c).before 6 t d6)).2)
    ⊢ iprop((dat3 V c).leavesExact 5 t ∗ (dat3 V c).leavesExact 6 t) := by
  subst hu
  by_cases h1 : t.val % 8 = 7
  · rw [if_pos ((hcond3_1 t).mpr h1)]; unfold Dat.leavesExact; rw [(liveAt3 t h1).1]; exact .rfl
  · rw [if_neg (mt (hcond3_1 t).mp h1), Dat.leavesExact_idle _ 5 t (idleAt3 t h1).1.1 (idleAt3 t h1).1.2, Dat.leavesExact_idle _ 6 t (idleAt3 t h1).2.1 (idleAt3 t h1).2.2]
    iintro ⟨H5, H6⟩
    isplitl [H5] <;> iexists _ <;> iassumption

theorem sound_body3 (c : Dev nD) (t : Fin cfg3.N) :
    iprop(PhiS3 V c t.val (Nat.le_of_lt t.isLt) ∗ (dat3 V c).owesAt () t.castSucc
      ∗ (∃ d, owns (c : Thread nD τ) (ms3_0 t) fullShare ((dat3 V c).before 0 t d))
      ∗ (∃ d, owns (c : Thread nD τ) (ms3_1 t) fullShare ((dat3 V c).before 1 t d))
      ∗ (∃ d, owns (c : Thread nD τ) (ms3_2 t) fullShare ((dat3 V c).before 2 t d))
      ∗ (∃ d, owns (c : Thread nD τ) (ms3_3 t) fullShare ((dat3 V c).before 3 t d))
      ∗ (∃ d, owns (c : Thread nD τ) (ms3_4 t) fullShare ((dat3 V c).before 4 t d))
      ∗ (∃ d, owns (c : Thread nD τ) (ms3_5 t) fullShare ((dat3 V c).before 5 t d))
      ∗ (∃ d, owns (c : Thread nD τ) (ms3_6 t) fullShare ((dat3 V c).before 6 t d)))
    ⊢ wp frame (wpE (defs₀ (F := F)) Variants.none c none) Set.univ (bodyAt3 t) (fun _ =>
      iprop(PhiS3 V c (t.val + 1) t.isLt ∗ (dat3 V c).owesAt () t.castSucc
        ∗ owns (c : Thread nD τ) (ms3_0 t) fullShare (iblk3 V c 0 t) ∗ owns (c : Thread nD τ) (ms3_1 t) fullShare (iblk3 V c 1 t)
        ∗ owns (c : Thread nD τ) (ms3_2 t) fullShare (iblk3 V c 2 t) ∗ owns (c : Thread nD τ) (ms3_3 t) fullShare (iblk3 V c 3 t)
        ∗ owns (c : Thread nD τ) (ms3_4 t) fullShare (iblk3 V c 4 t) ∗ (dat3 V c).leavesExact 5 t ∗ (dat3 V c).leavesExact 6 t)) := by
  simp only [before3 V c t]
  unfold bodyAt3 PhiS3 PhiAcc
  iintro ⟨⟨%a, %ha, ⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
  have eU : upd3At V c t (cond3_0 (grid3.coords t)) a = acc3 V c t.val t.isLt :=
    (upd3_congr _ _ _ _ _ (hcond3_0 t) fun h => ha (mt (hcond3_0 t).mpr h)).trans (acc3_eq V c t).symm
  iapply (run3 c _ _ _ _ _ _ _ _ _ _ _ _ _ _ _ _ _ _ _ (iblk3 V c 0 t) (iblk3 V c 1 t) (iblk3 V c 2 t) (iblk3 V c 3 t) (iblk3 V c 4 t) a ((dat3 V c).before 5 t d5, (dat3 V c).before 6 t d6) Set.univ _)
  unfold ins3
  iframe H0 H1 H2 H3 H4 H5 H6 HS0 HS1
  iintro ⟨⟨H0, H1, H2, H3, H4⟩, H5, H6, HS0, HS1⟩
  iframe Ho H0 H1 H2 H3 H4
  isplitl [HS0 HS1 HR Hg]
  · iexists _; isplitr
    · ipureintro; exact fun _ => eU
    · iframe
  · iapply (leaves3 V c t d5 d6 _ eU); iframe

theorem body_obligation3 (c : Dev nD) : BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 := by
  rw [PhiA3_eq]; show _ ⊢ PhiS3 V c 0 (Nat.zero_le _); unfold PhiS3 PhiAcc
  iintro ⟨⟨⟨⟨%d0, H0⟩, ⟨%d1, H1⟩⟩, HR⟩, Hg⟩
  iexists (d0, d1); isplitr
  · ipureintro; exact fun h0 => absurd (Nat.zero_mod 8) h0
  · iframe

theorem hout3 (c : Dev nD) : (dat3 V c).Φ (Fin.last cfg3.N) ⊢ Pipeline.ΦA spec3 c := by
  rw [PhiA3_eq]; show PhiS3 V c cfg3.N (Nat.le_refl _) ⊢ _; unfold PhiS3 PhiAcc
  iintro ⟨%a, %_, ⟨⟨HS0, HS1⟩, HR⟩, Hg⟩
  iframe HR Hg
  isplitl [HS0] <;> iexists _ <;> iassumption

end Region

end Cert.KernelIdeal.Hand

end
-- ==== Proof.KI.Reg4.lean ====
import proofs.«425134_j67723044323788_3_alg».proof.Proof.Gen.KernelIdeal.Launch
import proofs.«425134_j67723044323788_3_alg».proof.Proof.Gen.KernelIdeal.Skeleton
import proofs.«425134_j67723044323788_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S512x1000 := Rect.unit (s := S512x1000) ![0, 0] S512x1000.size inb_S512x1000_S512x1000_0_0

abbrev r4_1 : Rect S512x1 := Rect.unit (s := S512x1) ![0, 0] S512x1.size inb_S512x1_S512x1_0_0

def out4_2 (x0 : Vec F S512x1000 .f32) (x1 : Vec F S512x1000 .f32) : Vec F S512x1 .f32 :=
  View.canon [⟨r4_1, k4_pay9 (View.ld x0 r4_0) (View.ld x1 r4_0)⟩]

theorem cover4_2 (p0 : Vec F S512x1 .f32) (y : S512x1.Idx) :
    ∃ pc ∈ ([⟨r4_1, p0⟩] : List (View.Piece (Elt F) S512x1 .f32)), y ∈ pc.1.set :=
  View.cover_of_tiled [⟨r4_1, p0⟩] S512x1.size (by rfl) y

def out4_3 (x0 : Vec F S512x1000 .f32) (x1 : Vec F S512x1000 .f32) : Vec F S512x1 .f32 :=
  View.canon [⟨r4_1, k4_pay10 (View.ld x0 r4_0) (View.ld x1 r4_0)⟩]

theorem cover4_3 (p0 : Vec F S512x1 .f32) (y : S512x1.Idx) :
    ∃ pc ∈ ([⟨r4_1, p0⟩] : List (View.Piece (Elt F) S512x1 .f32)), y ∈ pc.1.set :=
  View.cover_of_tiled [⟨r4_1, p0⟩] S512x1.size (by rfl) y

set_option maxHeartbeats 1000000 in

theorem sound_kernel4 (c : Dev nD) (E : Set ℕ) (i : grid4.Coords)
    (arg1 : Memref sig .tc .vmem S512x1000 .f32) (harg1 : arg1.IsWhole) (arg2 : Memref sig .tc .vmem S512x1000 .f32) (harg2 : arg2.IsWhole)
    (arg3 : Memref sig .tc .vmem S512x1 .f32) (harg3 : arg3.IsWhole) (arg4 : Memref sig .tc .vmem S512x1 .f32) (harg4 : arg4.IsWhole)
    (x0 : Vec F S512x1000 .f32) (x1 : Vec F S512x1000 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out4_2 x0 x1) ∗ owns (c : Thread nD τ) arg4 fullShare (out4_3 x0 x1)) -∗ K ⟨⟩))
      ⊢ wp frame (wpE (defs₀ (F := F)) Variants.none c none) E (cc4__jsd_kernel i arg1 harg1 arg2 harg2 arg3 harg3 arg4 harg4) K := by
  simp only [cc4__jsd_kernel_eq_skeleton]; unfold cc4__jsd_kernel_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover4_2 _)
  iexists _; isplitr
  swap; · iexact H3
  ipureintro
  exact View.read_writes_eq_canon _ _ _ (cover4_3 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
    | ⟨3, _⟩ => out4_3 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]
theorem after4_3 (c : Dev nD) (t : Fin cfg4.N) : (dat4 V c).after 3 t = out4_3 (iblk4 V c 0 t) (iblk4 V c 1 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ (grid4.coords t) _ _ _ _ _ _ _ _ (iblk4 V c 0 t) (iblk4 V c 1 t) _)
  iframe H0 H1
  isplitl [H2]; · iexists _; iexact H2
  isplitl [H3]; · iexists _; iexact H3
  iintro ⟨H0, H1, H2, H3⟩
  iframe

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 (F := F) V c).Φ 0 := .rfl

theorem hout4 (c : Dev nD) : (dat4 (F := F) V c).Φ (Fin.last cfg4.N) ⊢ Pipeline.ΦA spec4 c := .rfl

end Cert.KernelIdeal.Hand

end
-- ==== Proof.KI.Run.lean ====
import proofs.«425134_j67723044323788_3_alg».proof.Proof.KI.Reg0
import proofs.«425134_j67723044323788_3_alg».proof.Proof.KI.Reg1
import proofs.«425134_j67723044323788_3_alg».proof.Proof.KI.Reg2
import proofs.«425134_j67723044323788_3_alg».proof.Proof.KI.Reg3
import proofs.«425134_j67723044323788_3_alg».proof.Proof.KI.Reg4
import proofs.«425134_j67723044323788_3_alg».proof.Proof.Gen.KernelIdeal.Regions
import proofs.«425134_j67723044323788_3_alg».proof.Proof.LibRegionSeg

noncomputable section

namespace Cert.KernelIdeal.Hand

open Cert.KernelIdeal.Gen
open Idealize.ShloMosaic Idealize.ShloMosaic.TcCoe Idealize.SL.BI
open Idealize.ShloMosaic.Pipeline (Dat)

variable {F : FTy → Type} [FloatOps F] [Named F]

variable (m : (ℓ : Loc nD τ sig) → Buf (Elt F) ℓ) (ρ : Dev nD → PrngReg)

abbrev rd (W : Dev nD → Valuation τ sig (Elt F)) : (c : Dev nD) → (b : Ref sig .tc) → Buf (Elt F) ((c : Thread nD τ).loc b) :=
  fun c b => W c b

abbrev W0 : Dev nD → Valuation τ sig (Elt F) := fun c b => (s₀ m ρ).mem ((c : Dev nD), b)

def W1 : Dev nD → Valuation τ sig (Elt F) := exitW (dat0 (rd (W0 m ρ))) (W0 m ρ)
theorem W1_keep (c : Dev nD) (b : Ref sig .tc) (hb : NotOut cfg0 b) :
    W1 m ρ c (Proc.devRef .tc b) = W0 m ρ c (Proc.devRef .tc b) :=
  exitW_keep _ _ c launch0.win.arr_inj (A_eq0 _ c) b hb

def W2 : Dev nD → Valuation τ sig (Elt F) := exitW (dat1 (rd (W1 m ρ))) (W1 m ρ)
theorem W2_keep (c : Dev nD) (b : Ref sig .tc) (hb : NotOut cfg1 b) :
    W2 m ρ c (Proc.devRef .tc b) = W1 m ρ c (Proc.devRef .tc b) :=
  exitW_keep _ _ c launch1.win.arr_inj (A_eq1 _ c) b hb

abbrev W3 : Dev nD → Valuation τ sig (Elt F) := fun c => StableHlo.after hostOps2 (W2 m ρ c)
theorem W3_of (c : Dev nD) (r : Ref sig .tc) (h : r ∉ hostOps2_W) : W3 m ρ c r = W2 m ρ c r :=
  StableHlo.after_of_writes_sub hostOps2 _ hostOps2_writes h

def W4 : Dev nD → Valuation τ sig (Elt F) := exitW (dat2 (rd (W3 m ρ))) (W3 m ρ)
theorem W4_keep (c : Dev nD) (b : Ref sig .tc) (hb : NotOut cfg2 b) :
    W4 m ρ c (Proc.devRef .tc b) = W3 m ρ c (Proc.devRef .tc b) :=
  exitW_keep _ _ c launch2.win.arr_inj (A_eq2 _ c) b hb

abbrev W5 : Dev nD → Valuation τ sig (Elt F) := fun c => StableHlo.after hostOps3 (W4 m ρ c)
theorem W5_of (c : Dev nD) (r : Ref sig .tc) (h : r ∉ hostOps3_W) : W5 m ρ c r = W4 m ρ c r :=
  StableHlo.after_of_writes_sub hostOps3 _ hostOps3_writes h

def W6 : Dev nD → Valuation τ sig (Elt F) := exitW (dat3 (rd (W5 m ρ))) (W5 m ρ)
theorem W6_keep (c : Dev nD) (b : Ref sig .tc) (hb : NotOut cfg3 b) :
    W6 m ρ c (Proc.devRef .tc b) = W5 m ρ c (Proc.devRef .tc b) :=
  exitW_keep _ _ c launch3.win.arr_inj (A_eq3 _ c) b hb

abbrev W7 : Dev nD → Valuation τ sig (Elt F) := fun c => StableHlo.after hostOps4 (W6 m ρ c)
theorem W7_of (c : Dev nD) (r : Ref sig .tc) (h : r ∉ hostOps4_W) : W7 m ρ c r = W6 m ρ c r :=
  StableHlo.after_of_writes_sub hostOps4 _ hostOps4_writes h

def W8 : Dev nD → Valuation τ sig (Elt F) := exitW (dat4 (rd (W7 m ρ))) (W7 m ρ)
theorem W8_keep (c : Dev nD) (b : Ref sig .tc) (hb : NotOut cfg4 b) :
    W8 m ρ c (Proc.devRef .tc b) = W7 m ρ c (Proc.devRef .tc b) :=
  exitW_keep _ _ c launch4.win.arr_inj (A_eq4 _ c) b hb

abbrev W9 : Dev nD → Valuation τ sig (Elt F) := fun c => StableHlo.after hostOps5 (W8 m ρ c)
theorem W9_of (c : Dev nD) (r : Ref sig .tc) (h : r ∉ hostOps5_W) : W9 m ρ c r = W8 m ρ c r :=
  StableHlo.after_of_writes_sub hostOps5 _ hostOps5_writes h

theorem W9_launch (c : Dev nD) (b : Ref sig .tc) (hr : ∀ p, NotOut (cfgs p) b)
    (hh : b ∉ hostOps2_W ++ hostOps3_W ++ hostOps4_W ++ hostOps5_W) : W9 m ρ c b = m ((c : Thread nD τ).loc b) := by
  simp only [List.mem_append, not_or] at hh
  rw [W9_of m ρ c b hh.2, W8_keep m ρ c b (hr 4), W7_of m ρ c b hh.1.2, W6_keep m ρ c b (hr 3), W5_of m ρ c b hh.1.1.2,
    W4_keep m ρ c b (hr 2), W3_of m ρ c b hh.1.1.1, W2_keep m ρ c b (hr 1), W1_keep m ρ c b (hr 0)]

theorem W9_main_arg0 (c : Dev nD) : W9 m ρ c (Proc.devRef .tc main_arg0) = m ((c : Thread nD τ).loc main_arg0) := W9_launch m ρ c _ (by decide) (by decide)
theorem W9_main_arg1 (c : Dev nD) : W9 m ρ c (Proc.devRef .tc main_arg1) = m ((c : Thread nD τ).loc main_arg1) := W9_launch m ρ c _ (by decide) (by decide)
theorem W9_main_arg2 (c : Dev nD) : W9 m ρ c (Proc.devRef .tc main_arg2) = m ((c : Thread nD τ).loc main_arg2) := W9_launch m ρ c _ (by decide) (by decide)
theorem W9_main_arg3 (c : Dev nD) : W9 m ρ c (Proc.devRef .tc main_arg3) = m ((c : Thread nD τ).loc main_arg3) := W9_launch m ρ c _ (by decide) (by decide)
theorem W9_main_arg4 (c : Dev nD) : W9 m ρ c (Proc.devRef .tc main_arg4) = m ((c : Thread nD τ).loc main_arg4) := W9_launch m ρ c _ (by decide) (by decide)

def pdats : (p : Fin 5) → (c : Dev nD) → Dat τ (Elt F) Unit ℕ (UR sig nD τ) ℕ (Pipeline.pin (pcfgs (F := F)) adm p) c
  | ⟨0, _⟩ => dat0 (rd (W0 m ρ))
  | ⟨1, _⟩ => dat1 (rd (W1 m ρ))
  | ⟨2, _⟩ => dat2 (rd (W3 m ρ))
  | ⟨3, _⟩ => dat3 (rd (W5 m ρ))
  | ⟨4, _⟩ => dat4 (rd (W7 m ρ))

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev mainSegs : List (Pipeline.Seg (pcfgs (F := F)) adm (pdats m ρ) () defs₀ Variants.none (fun _ => ∅) fun _ _ => 0) :=
  [ .region (regOf cfgs (pdats m ρ) defs₀ (W0 m ρ) launch0 (body_obligation0 _) (A_eq0 _) (hin0 _) (hout0 _)),
    .region (regOf cfgs (pdats m ρ) defs₀ (W1 m ρ) launch1 (body_obligation1 _) (A_eq1 _) (hin1 _) (hout1 _)),
    .host (hostOf cfgs defs₀ hostOps2 hostOps2_sub hostOps2_fresh (W2 m ρ)),
    .region (regOf cfgs (pdats m ρ) defs₀ (W3 m ρ) launch2 (body_obligation2 _) (A_eq2 _) (hin2 _) (hout2 _)),
    .host (hostOf cfgs defs₀ hostOps3 hostOps3_sub hostOps3_fresh (W4 m ρ)),
    .region (regOf cfgs (pdats m ρ) defs₀ (W5 m ρ) launch3 (body_obligation3 _) (A_eq3 _) (hin3 _) (hout3 _)),
    .host (hostOf cfgs defs₀ hostOps4 hostOps4_sub hostOps4_fresh (W6 m ρ)),
    .region (regOf cfgs (pdats m ρ) defs₀ (W7 m ρ) launch4 (body_obligation4 _) (A_eq4 _) (hin4 _) (hout4 _)),
    .host (hostOf cfgs defs₀ hostOps5 hostOps5_sub hostOps5_fresh (W8 m ρ)) ]

theorem main_run (c : Dev nD) : main (F := F) c = Pipeline.Seg.run (mainSegs m ρ) := by
  rw [main_chain c, Pipeline.Seg.run_eq_chain]
  rfl

theorem run_all : θ_run defs (onTc (τ := τ) (main (F := F))) ⟨m, fun _ => 0, ρ⟩ (fun r => ∀ c : Dev nD,
      ∀ b ∈ Pipeline.ucRefs τ sig, r.2.mem ((c : Thread nD τ).1, b) = W9 m ρ c b) :=
  run_segs cfgs (pdats m ρ) defs₀ cellOf_inj m ρ main (mainSegs m ρ) (main_run m ρ)
    (by simp only [mainSegs, Pipeline.Seg.pipes_host, Pipeline.Seg.pipes_region, Pipeline.Seg.pipes_nil]; decide) (W9 m ρ)
    ⟨fun _ => .rfl, fun _ => .rfl, fun _ => .rfl, fun _ => .rfl, fun _ => .rfl, fun _ => .rfl, fun _ => .rfl,
      fun _ => .rfl, fun _ => .rfl, fun _ => sep_assoc'⟩

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c)⟩) (run_all m ρ)

end Cert.KernelIdeal.Hand

end
-- ==== Proof.Val.LibReduceAny.lean ====
import Idealize.ShloMosaic.Lib.Affine
import Idealize.ShloMosaic.PureOps.Reduce

namespace Cert.LibReduceAny

open Idealize.ShloMosaic

theorem foldl_ori_eq_one {ι : Type} (f : ι → BitVec 1) :
    ∀ (l : List ι) (init : BitVec 1), l.foldl (fun r n => IntOp.ori r (f n)) init = 1#1 → init = 1#1 ∨ ∃ n ∈ l, f n = 1#1
  | [], _, h => Or.inl h
  | a :: l, init, h => by
    rcases foldl_ori_eq_one f l _ h with h1 | ⟨n, hn, hf⟩
    · rcases IntOp.ori_eq_one.1 h1 with hi | ha
      · exact Or.inl hi
      · exact Or.inr ⟨a, List.mem_cons.2 (Or.inl rfl), ha⟩
    · exact Or.inr ⟨n, List.mem_cons.2 (Or.inr hn), hf⟩

variable {s t u : Shape} {axes : List (Fin s.rank)}

theorem reduce_ori_eq_one (x : s.Idx → BitVec 1) (init : u.Idx → BitVec 1) (h : s.ReducesTo axes t) (hu : 0 < u.numel)
    (hinit : init (Shape.Idx.first hu) = 0#1) (j : t.Idx) (e : Host.reduce IntOp.ori x init h hu j = 1#1) :
    ∃ i : s.Idx, h.drop i = j ∧ x i = 1#1 := by
  rw [Host.reduce_eq_foldl] at e
  rcases foldl_ori_eq_one x _ _ e with h0 | ⟨i, hi, hx⟩
  · rw [hinit] at h0; exact absurd h0 (by decide)
  · rw [List.mem_filter] at hi
    exact ⟨i, by simpa using hi.2, hx⟩

theorem reduce_ori_any (x : s.Idx → BitVec 1) (init : u.Idx → BitVec 1) (h : s.ReducesTo axes t) (hu : 0 < u.numel)
    (hinit : init (Shape.Idx.first hu) = 0#1) (j : t.Idx) (e : Host.reduce IntOp.ori x init h hu j = 1#1) :
    ∃ i : s.Idx, x i = 1#1 :=
  let ⟨i, _, hx⟩ := reduce_ori_eq_one x init h hu hinit j e
  ⟨i, hx⟩

end Cert.LibReduceAny
-- ==== Proof.Val.PreFacts.lean ====
import proofs.«425134_j67723044323788_3_alg».proof.Pre_finite_inputs
import proofs.«425134_j67723044323788_3_alg».proof.Proof.Val.LibReduceAny
import Idealize.ShloMosaic.Lib.ReduceAll
import Idealize.ShloMosaic.Lib.StableHlo.Predicate
import Idealize.ShloMosaic.Lib.ValueIdx
import Idealize.ShloMosaic.PureOps.Ideal
import Idealize.ShloMosaic.PureOps.Ideal.Laws

noncomputable section

namespace Cert.Pre_finite_inputs.Hand

open Idealize.ShloMosaic

variable [Facts]

instance : Subsingleton S_.Idx := ⟨fun _ _ => funext fun d => d.elim0⟩

theorem real_of_abs_lt_top (x : EReal) (hx : max x (-x) < ⊤) : ∃ r : ℝ, x = (r : EReal) := by
  induction x using EReal.rec with
  | bot => simp at hx
  | coe r => exact ⟨r, rfl⟩
  | top => simp at hx

theorem ofBits_inf : Ideal.ofBits .f32 0x7F800000#32 = ⊤ := by simp [Ideal.ofBits, Ideal.ieee]

theorem finite_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant S_ .f32 0x7F800000#32)))
      (constantI S_ 1 1#1) hr hu ValueIdx.ix0 = 1#1) (i : s.Idx) : ∃ r : ℝ, a i = (r : EReal) := by
  have hi := Host.reduce_andi_all _ _ hr hu ValueIdx.ix0 e i
  change Ideal.cmp .olt (max (a i) (-(a i))) (Ideal.ofBits .f32 0x7F800000#32) = 1#1 at hi
  rw [ofBits_inf] at hi
  simp only [Ideal.cmp] at hi
  exact real_of_abs_lt_top _ (of_decide_eq_true ((StableHlo.Predicate.ofBool_eq_one_iff _).1 hi))

theorem range_of_all {axes : List (Fin S8192.rank)} (a4 : IVec S8192 32)
    (hb : S_.BroadcastsInDim S8192 (![] : Fin 0 → Fin S8192.rank)) (hr : S8192.ReducesTo axes S_) (hu : 0 < S_.numel)
    (e : Host.reduce IntOp.andi
      (andi (cmpi .sge a4 (broadcastInDim S8192 ![] hb (constantI S_ 32 0#32)))
        (cmpi .slt a4 (broadcastInDim S8192 ![] hb (constantI S_ 32 8192#32))))
      (constantI S_ 1 1#1) hr hu ValueIdx.ix0 = 1#1) (i : S8192.Idx) : 0 ≤ (a4 i).toInt ∧ (a4 i).toInt < 8192 := by
  have hi := Host.reduce_andi_all _ _ hr hu ValueIdx.ix0 e i
  change IntOp.andi (IntOp.cmpi .sge (a4 i) 0#32) (IntOp.cmpi .slt (a4 i) 8192#32) = 1#1 at hi
  rw [IntOp.andi_eq_one, IntOp.cmpi_sge, IntOp.cmpi_slt] at hi
  have z : (0#32 : BitVec 32).toInt = 0 := by decide
  have k : (8192#32 : BitVec 32).toInt = 8192 := by decide
  rw [z, k] at hi
  exact hi

theorem bcast_slice0 (a4 : IVec S8192 32) (hs : S8192.Slices ![0] S1) (hb : S1.BroadcastsInDim S8192 (![0] : Fin 1 → Fin S8192.rank))
    (i : S8192.Idx) : broadcastInDim S8192 ![0] hb (extractStridedSlice S1 ![0] a4 hs) i = a4 (ValueIdx.ix1 0) := by
  simp only [broadcastInDim, extractStridedSlice]
  congr 1
  funext a
  have ha : a = 0 := Subsingleton.elim _ _
  subst ha
  apply Fin.ext
  split
  · rfl
  · next h1 => exact absurd rfl h1

theorem some_ne_first_of_any {axes : List (Fin S8192.rank)} (a4 : IVec S8192 32) (hs : S8192.Slices ![0] S1)
    (hb : S1.BroadcastsInDim S8192 (![0] : Fin 1 → Fin S8192.rank)) (hr : S8192.ReducesTo axes S_) (hu : 0 < S_.numel)
    (e : Host.reduce IntOp.ori (cmpi .ne a4 (broadcastInDim S8192 ![0] hb (extractStridedSlice S1 ![0] a4 hs)))
      (constantI S_ 1 0#1) hr hu ValueIdx.ix0 = 1#1) : ∃ j : S8192.Idx, a4 j ≠ a4 (ValueIdx.ix1 0) := by
  obtain ⟨j, hj⟩ := Cert.LibReduceAny.reduce_ori_any _ _ hr hu rfl ValueIdx.ix0 e
  change IntOp.cmpi .ne (a4 j) (broadcastInDim S8192 ![0] hb (extractStridedSlice S1 ![0] a4 hs) j) = 1#1 at hj
  rw [bcast_slice0, IntOp.cmpi_ne] at hj
  exact ⟨j, hj⟩

section Decoded

variable (a0 a1 : FVec Ideal S8192x128 .f32) (a2 a3 : FVec Ideal S8192x1000 .f32) (a4 : IVec S8192 32)

theorem decoded (h : fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal)) ∧
    (∀ i, ∃ r : ℝ, a3 i = (r : EReal)) ∧ (∀ i, 0 ≤ (a4 i).toInt ∧ (a4 i).toInt < 8192) ∧
    ∃ j : S8192.Idx, a4 j ≠ a4 (ValueIdx.ix1 0) := by
  have h0 := congrFun h ValueIdx.ix0
  dsimp only [fn, fn_part1, andi] at h0
  simp only [IntOp.andi_eq_one] at h0
  obtain ⟨⟨⟨⟨⟨h3, h7⟩, h12⟩, h17⟩, h24⟩, h29⟩ := h0
  exact ⟨finite_of_all a0 _ _ _ h3, finite_of_all a1 _ _ _ h7, finite_of_all a2 _ _ _ h12, finite_of_all a3 _ _ _ h17,
    range_of_all a4 _ _ _ h24, some_ne_first_of_any a4 _ _ _ _ h29⟩

variable {a0 a1 a2 a3 a4}
variable (h : fn (F := Ideal) a0 a1 a2 a3 a4 = fun _ => 1#1)
include h

theorem finite0 (i : S8192x128.Idx) : ∃ r : ℝ, a0 i = (r : EReal) := (decoded a0 a1 a2 a3 a4 h).1 i
theorem finite1 (i : S8192x128.Idx) : ∃ r : ℝ, a1 i = (r : EReal) := (decoded a0 a1 a2 a3 a4 h).2.1 i
theorem finite2 (i : S8192x1000.Idx) : ∃ r : ℝ, a2 i = (r : EReal) := (decoded a0 a1 a2 a3 a4 h).2.2.1 i
theorem finite3 (i : S8192x1000.Idx) : ∃ r : ℝ, a3 i = (r : EReal) := (decoded a0 a1 a2 a3 a4 h).2.2.2.1 i

theorem target_range (i : S8192.Idx) : 0 ≤ (a4 i).toInt ∧ (a4 i).toInt < 8192 := (decoded a0 a1 a2 a3 a4 h).2.2.2.2.1 i

theorem target_some_ne_first : ∃ j : S8192.Idx, a4 j ≠ a4 (ValueIdx.ix1 0) := (decoded a0 a1 a2 a3 a4 h).2.2.2.2.2

theorem target_some_ne (i : Fin 8192) : ∃ j : Fin 8192, a4 (ValueIdx.ix1 j) ≠ a4 (ValueIdx.ix1 i) := by
  obtain ⟨j0, hj0⟩ := target_some_ne_first h
  rw [ValueIdx.eq_ix1 j0] at hj0
  by_cases hi : a4 (ValueIdx.ix1 i) = a4 (ValueIdx.ix1 0)
  · exact ⟨j0 0, by rw [hi]; exact hj0⟩
  · exact ⟨0, fun e => hi e.symm⟩

end Decoded

end Cert.Pre_finite_inputs.Hand
-- ==== Proof.Spec.Spec.lean ====
import Idealize.ShloMosaic.PureOps.Ideal
import Idealize.ShloMosaic.Lib.ValueIdx

noncomputable section

open scoped BigOperators

namespace Cert.Spec

open Idealize.ShloMosaic Idealize.ShloMosaic.ValueIdx

abbrev S8192x128 : Shape := ⟨2, ![8192, 128]⟩
abbrev S8192x1000 : Shape := ⟨2, ![8192, 1000]⟩
abbrev S8192x1 : Shape := ⟨2, ![8192, 1]⟩
abbrev S1x8192 : Shape := ⟨2, ![1, 8192]⟩
abbrev S8192 : Shape := ⟨1, ![8192]⟩
abbrev S_ : Shape := ⟨0, ![]⟩

abbrev e12 : EReal := Ideal.ofBits .f32 0x2B8CBCCC#32
abbrev e10 : EReal := Ideal.ofBits .f32 0x2EDBE6FF#32
abbrev one : EReal := Ideal.ofBits .f32 0x3F800000#32
abbrev n8192 : EReal := Ideal.ofBits .f32 0x46000000#32
abbrev half : EReal := Ideal.ofBits .f32 0x3F000000#32

abbrev tenth : EReal := Ideal.ofBits .f32 0x3DCCCCCD#32

abbrev kap : EReal := ((134217728 / 13421773 : ℝ) : EReal)

abbrev Feat := S8192x128.Idx → EReal
abbrev Logit := S8192x1000.Idx → EReal
abbrev Col := S8192x1.Idx → EReal
abbrev Labels := S8192.Idx → BitVec 32

def nrm (x : Feat) : Feat := fun i =>
  Ideal.div (x i) (max (Ideal.sqrt (∑ k : Fin 128, x (ix2 (i 0) k) * x (ix2 (i 0) k))) e12)

def dot (a b : Feat) (i j : Fin 8192) : EReal := ∑ k : Fin 128, a (ix2 i k) * b (ix2 j k)

def lsum (k : EReal) (a b : Feat) : Col := fun r => ∑ j : Fin 8192, Ideal.exp (dot a b (r 0) j * k - k)

def psK (k : EReal) (a b : Feat) (linv : Col) (i j : Fin 8192) : EReal :=
  min (Ideal.exp (dot a b i j * k - k) * linv (ix2 i 0)) one

def tq (k : EReal) (a b : Feat) (linv : Col) (same : Bool) (i j : Fin 8192) : EReal :=
  0 - Ideal.log ((if same then psK k a b linv i j else one - psK k a b linv i j) + e10)

def lpos (k : EReal) (a b : Feat) (linv : Col) (trow : S8192x1.Idx → BitVec 32) (tcol : S1x8192.Idx → BitVec 32) : Col := fun r =>
  ∑ j : Fin 8192, if trow (ix2 (r 0) 0) = tcol (ix2 0 j) then tq k a b linv true (r 0) j else 0

def lneg (k : EReal) (a b : Feat) (linv : Col) (trow : S8192x1.Idx → BitVec 32) (tcol : S1x8192.Idx → BitVec 32) : Col := fun r =>
  ∑ j : Fin 8192, if trow (ix2 (r 0) 0) = tcol (ix2 0 j) then 0 else tq k a b linv false (r 0) j

def tcolOf (tg : Labels) : S1x8192.Idx → BitVec 32 := fun r => tg (ix1 (r 1))
def trowOf (tg : Labels) : S8192x1.Idx → BitVec 32 := fun r => tg (ix1 (r 0))

def rmax (x : Logit) (i : Fin 8192) : EReal := (Finset.univ : Finset (Fin 1000)).fold max ⊥ (fun c => x (ix2 i c))

def zsh (x : Logit) (i : Fin 8192) (c : Fin 1000) : EReal := x (ix2 i c) - rmax x i

def esum (x : Logit) (i : Fin 8192) : EReal := ∑ c : Fin 1000, Ideal.exp (zsh x i c)

def lsm (x : Logit) (i : Fin 8192) (c : Fin 1000) : EReal := zsh x i c - Ideal.log (esum x i)

def smK (x : Logit) (i : Fin 8192) (c : Fin 1000) : EReal := Ideal.div (Ideal.exp (zsh x i c)) (esum x i)

def klRow (x y : Logit) : Col := fun r => ∑ c : Fin 1000, smK y (r 0) c * (lsm y (r 0) c - lsm x (r 0) c)

def cnt (tg : Labels) (i : Fin 8192) : ℕ := (Finset.univ.filter fun j : Fin 8192 => tg (ix1 j) = tg (ix1 i)).card

def nceK (lp ln : Col) (pc nc : Fin 8192 → EReal) : EReal :=
  Ideal.div (0 + ∑ i : Fin 8192, (Ideal.div (lp (ix2 i 0)) (pc i) + Ideal.div (ln (ix2 i 0)) (nc i))) n8192

def jsdK (st ts : Col) : EReal :=
  half * (Ideal.div ((0 + ∑ i : S8192x1.Idx, st i) * one) n8192 + Ideal.div ((0 + ∑ i : S8192x1.Idx, ts i) * one) n8192)

def kernelOut (fs ft : Feat) (ls lt : Logit) (tg : Labels) : EReal :=
  let a := nrm fs
  let b := nrm ft
  let linv : Col := fun r => Ideal.div one (lsum kap a b r)
  let pc : Fin 8192 → EReal := fun i => max ((cnt tg i : ℕ) : EReal) one
  let nc : Fin 8192 → EReal := fun i => max (n8192 - ((cnt tg i : ℕ) : EReal)) one
  nceK (lpos kap a b linv (trowOf tg) (tcolOf tg)) (lneg kap a b linv (trowOf tg) (tcolOf tg)) pc nc + jsdK (klRow ls lt) (klRow lt ls)

def sR (a b : Feat) (i j : Fin 8192) : EReal := Ideal.div (dot a b i j) tenth

def mR (a b : Feat) (i : Fin 8192) : EReal := (Finset.univ : Finset (Fin 8192)).fold max ⊥ (fun j => sR a b i j)

def eR (a b : Feat) (i j : Fin 8192) : EReal := Ideal.exp (sR a b i j - mR a b i)

def pR (a b : Feat) (i j : Fin 8192) : EReal := Ideal.div (eR a b i j) (∑ j' : Fin 8192, eR a b i j')

def pm (tg : Labels) (i j : Fin 8192) : EReal := if tg (ix1 i) = tg (ix1 j) then 1 else 0

def rowR (a b : Feat) (tg : Labels) (i : Fin 8192) : EReal :=
  Ideal.div (∑ j : Fin 8192, (-(Ideal.log (pR a b i j + e10))) * pm tg i j) (∑ j : Fin 8192, pm tg i j)
    + Ideal.div (∑ j : Fin 8192, (-(Ideal.log ((one - pR a b i j) + e10))) * (one - pm tg i j)) (∑ j : Fin 8192, (one - pm tg i j))

def nceR (a b : Feat) (tg : Labels) : EReal := Ideal.div (∑ i : Fin 8192, rowR a b tg i) n8192

def klR (x y : Logit) : EReal :=
  ∑ i : S8192x1000.Idx, Ideal.exp (lsm y (i 0) (i 1)) * (lsm y (i 0) (i 1) - lsm x (i 0) (i 1))

def jsdR (ls lt : Logit) : EReal := half * (Ideal.div (klR ls lt * one) n8192 + Ideal.div (klR lt ls * one) n8192)

def refOut (fs ft : Feat) (ls lt : Logit) (tg : Labels) : EReal :=
  nceR (nrm fs) (nrm ft) tg + jsdR ls lt

end Cert.Spec

end
-- ==== Proof.Math.Jsd.lean ====
import proofs.«425134_j67723044323788_3_alg».proof.Proof.Spec.Spec
import Mathlib.Data.Finset.Fold
import Mathlib.Data.EReal.Operations
import Mathlib.Algebra.BigOperators.Fin
import Mathlib.Analysis.SpecialFunctions.Log.Basic

noncomputable section

open scoped BigOperators

namespace Cert.Spec

open Idealize.ShloMosaic Idealize.ShloMosaic.ValueIdx

theorem coe_sum_real {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

theorem rmax_real (y : Logit) (hy : ∀ i, ∃ r : ℝ, y i = (r : EReal)) (i : Fin 8192) :
    ∃ m : ℝ, rmax y i = (m : EReal) := by
  have hbot : rmax y i ≠ ⊥ := by
    obtain ⟨r, hr⟩ := hy (ix2 i 0)
    have hle : (r : EReal) ≤ rmax y i := by
      unfold rmax
      exact (Finset.le_fold_max _).mpr (Or.inr ⟨0, Finset.mem_univ _, hr.symm.le⟩)
    intro h
    rw [h] at hle
    exact absurd hle (not_le.mpr (EReal.bot_lt_coe r))
  have htop : rmax y i ≠ ⊤ := by
    have hlt : rmax y i < ⊤ := by
      unfold rmax
      refine (Finset.fold_max_lt _).mpr ⟨bot_lt_top, fun c _ => ?_⟩
      obtain ⟨r, hr⟩ := hy (ix2 i c)
      rw [hr]
      exact EReal.coe_lt_top r
    exact hlt.ne
  exact ⟨(rmax y i).toReal, (EReal.coe_toReal htop hbot).symm⟩

theorem row_real (y : Logit) (hy : ∀ i, ∃ r : ℝ, y i = (r : EReal)) (i : Fin 8192) :
    ∃ (z : Fin 1000 → ℝ) (S : ℝ), 0 < S ∧ (∀ c, zsh y i c = (z c : EReal)) ∧ esum y i = (S : EReal) := by
  obtain ⟨m, hm⟩ := rmax_real y hy i
  choose r hr using fun c => hy (ix2 i c)
  have hz : ∀ c, zsh y i c = ((r c - m : ℝ) : EReal) := by
    intro c
    unfold zsh
    rw [hr c, hm, EReal.coe_sub]
  refine ⟨fun c => r c - m, ∑ c, Real.exp (r c - m), ?_, hz, ?_⟩
  · exact Finset.sum_pos (fun c _ => Real.exp_pos _) ⟨0, Finset.mem_univ _⟩
  · unfold esum
    rw [coe_sum_real]
    refine Finset.sum_congr rfl fun c _ => ?_
    rw [hz c, Ideal.exp_coe]

theorem smK_eq_exp_lsm (y : Logit) (hy : ∀ i, ∃ r : ℝ, y i = (r : EReal)) (i : Fin 8192) (c : Fin 1000) :
    smK y i c = Ideal.exp (lsm y i c) := by
  obtain ⟨z, S, hS, hz, hsum⟩ := row_real y hy i
  unfold smK lsm
  rw [hz c, hsum, Ideal.exp_coe, Ideal.log_coe, if_neg (not_le.mpr hS), ← EReal.coe_sub, Ideal.exp_coe,
    Ideal.div_coe hS.ne', ← EReal.coe_mul]
  congr 1
  rw [Real.exp_sub, Real.exp_log hS, one_div, div_eq_mul_inv]

theorem klRow_eq (x y : Logit) (hy : ∀ i, ∃ r : ℝ, y i = (r : EReal)) (a : Fin 8192) :
    klRow x y (ix2 a 0) = ∑ c : Fin 1000, Ideal.exp (lsm y a c) * (lsm y a c - lsm x a c) := by
  show ∑ c : Fin 1000, smK y a c * (lsm y a c - lsm x a c) = _
  exact Finset.sum_congr rfl fun c _ => by rw [smK_eq_exp_lsm y hy a c]

theorem sum_klRow (x y : Logit) (hy : ∀ i, ∃ r : ℝ, y i = (r : EReal)) :
    ∑ i : S8192x1.Idx, klRow x y i = klR x y := by
  unfold klR
  rw [sum_idx2, sum_idx2]
  refine Finset.sum_congr rfl fun a _ => ?_
  rw [Fin.sum_univ_one, klRow_eq x y hy]

theorem jsd_eq (x y : Logit) (hx : ∀ i, ∃ r : ℝ, x i = (r : EReal)) (hy : ∀ i, ∃ r : ℝ, y i = (r : EReal)) :
    jsdK (klRow x y) (klRow y x) = jsdR x y := by
  unfold jsdK jsdR
  rw [zero_add, zero_add, sum_klRow x y hy, sum_klRow y x hx]

end Cert.Spec

end
-- ==== Proof.Math.Nce.lean ====
import proofs.«425134_j67723044323788_3_alg».proof.Proof.Spec.Spec
import Idealize.ShloMosaic.PureOps.Ideal
import Mathlib.Analysis.SpecialFunctions.Exp
import Mathlib.Algebra.BigOperators.Ring.Finset
import Mathlib.Algebra.Order.BigOperators.Group.Finset
import Mathlib.Data.Finset.Lattice.Fold
import Mathlib.Data.Fintype.Card
import Mathlib.Data.EReal.Inv

noncomputable section

open scoped BigOperators

namespace Cert.Spec

open Idealize.ShloMosaic Idealize.ShloMosaic.ValueIdx

section Reals
variable {ι : Type*} [Fintype ι]

theorem softmax_shift (f : ι → ℝ) (c : ℝ) (j : ι) :
    Real.exp (f j - c) / ∑ j', Real.exp (f j' - c) = Real.exp (f j) / ∑ j', Real.exp (f j') := by
  simp_rw [Real.exp_sub]
  rw [← Finset.sum_div, div_div_div_cancel_right₀ (Real.exp_pos c).ne']

theorem expsum_pos [Nonempty ι] (f : ι → ℝ) : 0 < ∑ j, Real.exp (f j) :=
  Finset.sum_pos (fun j _ => Real.exp_pos (f j)) Finset.univ_nonempty

theorem softmax_le_one [Nonempty ι] (f : ι → ℝ) (j : ι) : Real.exp (f j) / ∑ j', Real.exp (f j') ≤ 1 := by
  rw [div_le_one (expsum_pos f)]
  exact Finset.single_le_sum (f := fun j' => Real.exp (f j')) (fun i _ => (Real.exp_pos (f i)).le) (Finset.mem_univ j)

end Reals

theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem one_eq : one = ((1 : ℝ) : EReal) := by
  simp [Ideal.ofBits, Ideal.ieee, -EReal.coe_mul]; norm_num
theorem n8192_eq : n8192 = ((8192 : ℝ) : EReal) := by
  simp [Ideal.ofBits, Ideal.ieee, -EReal.coe_mul]; norm_num
theorem tenth_eq : tenth = ((13421773 / 134217728 : ℝ) : EReal) := by
  simp [Ideal.ofBits, Ideal.ieee, -EReal.coe_mul]; norm_num

abbrev κ : ℝ := 134217728 / 13421773

def rdot (ra rb : S8192x128.Idx → ℝ) (i j : Fin 8192) : ℝ := ∑ k : Fin 128, ra (ix2 i k) * rb (ix2 j k)

section Finite
variable (ra rb : S8192x128.Idx → ℝ)

local notation "A" => (fun x => ((ra x : ℝ) : EReal) : Feat)
local notation "B" => (fun x => ((rb x : ℝ) : EReal) : Feat)

theorem dot_coe (i j : Fin 8192) : dot A B i j = ((rdot ra rb i j : ℝ) : EReal) := by
  unfold dot rdot
  rw [← coe_sum]
  exact Finset.sum_congr rfl (fun k _ => (EReal.coe_mul _ _).symm)

theorem kexp_coe (d : ℝ) : Ideal.exp ((d : EReal) * kap - kap) = ((Real.exp (d * κ - κ) : ℝ) : EReal) := by
  show Ideal.exp ((d : EReal) * ((κ : ℝ) : EReal) - ((κ : ℝ) : EReal)) = _
  rw [← EReal.coe_mul, ← EReal.coe_sub, Ideal.exp_coe]

theorem lsum_coe (r : S8192x1.Idx) :
    lsum kap A B r = ((∑ j : Fin 8192, Real.exp (rdot ra rb (r 0) j * κ - κ) : ℝ) : EReal) := by
  unfold lsum
  rw [← coe_sum]
  exact Finset.sum_congr rfl (fun j _ =>
    (congrArg (fun d => Ideal.exp (d * kap - kap)) (dot_coe ra rb (r 0) j)).trans (kexp_coe _))

theorem psK_coe (i j : Fin 8192) :
    psK kap A B (fun r => Ideal.div one (lsum kap A B r)) i j
      = ((Real.exp (rdot ra rb i j * κ - κ) / ∑ j' : Fin 8192, Real.exp (rdot ra rb i j' * κ - κ) : ℝ) : EReal) := by
  unfold psK
  show min (Ideal.exp (dot A B i j * kap - kap) * Ideal.div one (lsum kap A B (ix2 i 0))) one = _
  rw [dot_coe, kexp_coe, lsum_coe]
  show min (_ * Ideal.div one ((∑ j' : Fin 8192, Real.exp (rdot ra rb i j' * κ - κ) : ℝ) : EReal)) one = _
  have hS : (0 : ℝ) < ∑ j' : Fin 8192, Real.exp (rdot ra rb i j' * κ - κ) := expsum_pos _
  rw [Ideal.div_coe hS.ne', one_eq, ← EReal.coe_mul, ← EReal.coe_mul, one_mul, mul_one_div]
  refine min_eq_left (EReal.coe_le_coe_iff.2 ?_)
  exact softmax_le_one (fun j' => rdot ra rb i j' * κ - κ) j

theorem sR_coe (i j : Fin 8192) : sR A B i j = ((rdot ra rb i j * κ : ℝ) : EReal) := by
  unfold sR
  rw [dot_coe, tenth_eq, Ideal.div_coe (by norm_num), ← EReal.coe_mul]
  congr 2
  norm_num

theorem mR_real (i : Fin 8192) : ∃ m : ℝ, mR A B i = (m : EReal) := by
  obtain ⟨j, -, hj⟩ := Finset.exists_mem_eq_sup (Finset.univ : Finset (Fin 8192)) Finset.univ_nonempty
    (fun j => sR A B i j)
  exact ⟨rdot ra rb i j * κ, by rw [← sR_coe]; exact hj⟩

theorem pR_coe (i j : Fin 8192) (m : ℝ) (hm : mR A B i = (m : EReal)) :
    pR A B i j
      = ((Real.exp (rdot ra rb i j * κ - m) / ∑ j' : Fin 8192, Real.exp (rdot ra rb i j' * κ - m) : ℝ) : EReal) := by
  have he : ∀ j' : Fin 8192, eR A B i j' = ((Real.exp (rdot ra rb i j' * κ - m) : ℝ) : EReal) := fun j' => by
    unfold eR
    rw [sR_coe, hm, ← EReal.coe_sub, Ideal.exp_coe]
  unfold pR
  have hS : (0 : ℝ) < ∑ j' : Fin 8192, Real.exp (rdot ra rb i j' * κ - m) := expsum_pos _
  rw [he, Finset.sum_congr rfl (fun j' _ => he j'), coe_sum, Ideal.div_coe hS.ne', ← EReal.coe_mul, mul_one_div]

theorem psK_eq_pR (i j : Fin 8192) :
    psK kap A B (fun r => Ideal.div one (lsum kap A B r)) i j = pR A B i j := by
  obtain ⟨m, hm⟩ := mR_real ra rb i
  rw [psK_coe, pR_coe ra rb i j m hm]
  congr 1
  rw [softmax_shift (fun j' => rdot ra rb i j' * κ) κ j, softmax_shift (fun j' => rdot ra rb i j' * κ) m j]

end Finite

def rpm (tg : Labels) (i j : Fin 8192) : ℝ := if tg (ix1 i) = tg (ix1 j) then 1 else 0

theorem pm_coe (tg : Labels) (i j : Fin 8192) : pm tg i j = ((rpm tg i j : ℝ) : EReal) := by
  unfold pm rpm
  split_ifs <;> simp

theorem sum_rpm (tg : Labels) (i : Fin 8192) : ∑ j : Fin 8192, rpm tg i j = ((cnt tg i : ℕ) : ℝ) := by
  unfold rpm cnt
  rw [Finset.sum_boole]
  congr 2
  exact Finset.filter_congr (fun j _ => eq_comm)

theorem one_le_cnt (tg : Labels) (i : Fin 8192) : 1 ≤ cnt tg i :=
  Finset.card_pos.2 ⟨i, by simp⟩

theorem cnt_lt (tg : Labels) (i : Fin 8192) (h : ∃ j : Fin 8192, tg (ix1 j) ≠ tg (ix1 i)) : cnt tg i < 8192 := by
  obtain ⟨j, hj⟩ := h
  have := Finset.card_lt_univ_of_notMem (s := Finset.univ.filter fun j : Fin 8192 => tg (ix1 j) = tg (ix1 i)) (x := j)
    (by simp [hj])
  simpa [cnt] using this

theorem sum_pm (tg : Labels) (i : Fin 8192) : ∑ j : Fin 8192, pm tg i j = ((cnt tg i : ℕ) : EReal) := by
  rw [Finset.sum_congr rfl (fun j _ => pm_coe tg i j), coe_sum, sum_rpm, EReal.coe_natCast]

theorem sum_one_sub_pm (tg : Labels) (i : Fin 8192) :
    ∑ j : Fin 8192, (one - pm tg i j) = n8192 - ((cnt tg i : ℕ) : EReal) := by
  have h : ∀ j : Fin 8192, one - pm tg i j = ((1 - rpm tg i j : ℝ) : EReal) := fun j => by
    rw [one_eq, pm_coe, ← EReal.coe_sub]
  rw [Finset.sum_congr rfl (fun j _ => h j), coe_sum, Finset.sum_sub_distrib, sum_rpm, n8192_eq, ← EReal.coe_natCast,
    ← EReal.coe_sub]
  congr 2
  simp

theorem max_cnt_one (tg : Labels) (i : Fin 8192) : max ((cnt tg i : ℕ) : EReal) one = ((cnt tg i : ℕ) : EReal) := by
  refine max_eq_left ?_
  rw [one_eq, ← EReal.coe_natCast, EReal.coe_le_coe_iff]
  exact_mod_cast one_le_cnt tg i

theorem max_rest_one (tg : Labels) (i : Fin 8192) (h : ∃ j : Fin 8192, tg (ix1 j) ≠ tg (ix1 i)) :
    max (n8192 - ((cnt tg i : ℕ) : EReal)) one = n8192 - ((cnt tg i : ℕ) : EReal) := by
  refine max_eq_left ?_
  rw [one_eq, n8192_eq, ← EReal.coe_natCast, ← EReal.coe_sub, EReal.coe_le_coe_iff]
  have : ((cnt tg i : ℕ) : ℝ) ≤ 8191 := by exact_mod_cast Nat.lt_succ_iff.1 (cnt_lt tg i h)
  linarith

section Finite
variable (ra rb : S8192x128.Idx → ℝ)

local notation "A" => (fun x => ((ra x : ℝ) : EReal) : Feat)
local notation "B" => (fun x => ((rb x : ℝ) : EReal) : Feat)
local notation "LINV" => (fun r => Ideal.div one (lsum kap A B r) : Col)

theorem lpos_row (tg : Labels) (i : Fin 8192) :
    lpos kap A B LINV (trowOf tg) (tcolOf tg) (ix2 i 0)
      = ∑ j : Fin 8192, (-(Ideal.log (pR A B i j + e10))) * pm tg i j := by
  unfold lpos
  refine Finset.sum_congr rfl (fun j _ => ?_)
  show (if tg (ix1 i) = tg (ix1 j) then tq kap A B LINV true i j else 0) = _
  unfold tq pm
  rw [if_pos rfl, psK_eq_pR]
  split_ifs
  · rw [mul_one, sub_eq_add_neg, zero_add]
  · rw [mul_zero]

theorem lneg_row (tg : Labels) (i : Fin 8192) :
    lneg kap A B LINV (trowOf tg) (tcolOf tg) (ix2 i 0)
      = ∑ j : Fin 8192, (-(Ideal.log ((one - pR A B i j) + e10))) * (one - pm tg i j) := by
  unfold lneg
  refine Finset.sum_congr rfl (fun j _ => ?_)
  show (if tg (ix1 i) = tg (ix1 j) then 0 else tq kap A B LINV false i j) = _
  unfold tq pm
  rw [if_neg Bool.false_ne_true, psK_eq_pR]
  split_ifs
  · rw [one_eq, ← EReal.coe_one, ← EReal.coe_sub, sub_self, EReal.coe_zero, mul_zero]
  · rw [sub_zero, one_eq, EReal.coe_one, mul_one, sub_eq_add_neg, zero_add]

theorem row_eq (tg : Labels) (i : Fin 8192) (h : ∃ j : Fin 8192, tg (ix1 j) ≠ tg (ix1 i)) :
    Ideal.div (lpos kap A B LINV (trowOf tg) (tcolOf tg) (ix2 i 0)) (max ((cnt tg i : ℕ) : EReal) one)
        + Ideal.div (lneg kap A B LINV (trowOf tg) (tcolOf tg) (ix2 i 0)) (max (n8192 - ((cnt tg i : ℕ) : EReal)) one)
      = rowR A B tg i := by
  unfold rowR
  rw [sum_pm, sum_one_sub_pm, max_cnt_one, max_rest_one tg i h, lpos_row, lneg_row]

end Finite

theorem nceK_eq_nceR (a b : Feat) (ha : ∀ i, ∃ r : ℝ, a i = (r : EReal)) (hb : ∀ i, ∃ r : ℝ, b i = (r : EReal))
    (tg : Labels) (hne : ∀ i : Fin 8192, ∃ j : Fin 8192, tg (ix1 j) ≠ tg (ix1 i)) :
    nceK (lpos kap a b (fun r => Ideal.div one (lsum kap a b r)) (trowOf tg) (tcolOf tg))
        (lneg kap a b (fun r => Ideal.div one (lsum kap a b r)) (trowOf tg) (tcolOf tg))
        (fun i => max ((cnt tg i : ℕ) : EReal) one) (fun i => max (n8192 - ((cnt tg i : ℕ) : EReal)) one)
      = nceR a b tg := by
  choose ra hra using ha
  choose rb hrb using hb
  obtain rfl : a = fun x => ((ra x : ℝ) : EReal) := funext hra
  obtain rfl : b = fun x => ((rb x : ℝ) : EReal) := funext hrb
  unfold nceK nceR
  rw [zero_add]
  congr 1
  exact Finset.sum_congr rfl (fun i _ => row_eq ra rb tg i (hne i))

end Cert.Spec

end
-- ==== Proof.Math.Main.lean ====
import proofs.«425134_j67723044323788_3_alg».proof.Proof.Spec.Spec
import proofs.«425134_j67723044323788_3_alg».proof.Proof.Math.Jsd
import proofs.«425134_j67723044323788_3_alg».proof.Proof.Math.Nce
import Mathlib.Data.EReal.Operations
import Mathlib.Algebra.Order.BigOperators.Group.Finset
import Mathlib.Analysis.SpecialFunctions.Pow.Real

noncomputable section

open scoped BigOperators

namespace Cert.Spec

open Idealize.ShloMosaic Idealize.ShloMosaic.ValueIdx

theorem e12_real : e12 = ((9223372 * (2 : ℝ) ^ (-63 : ℤ) : ℝ) : EReal) := by
  simp [Ideal.ofBits, Ideal.ieee, -EReal.coe_mul]

theorem coe_max_real (a b : ℝ) : ((max a b : ℝ) : EReal) = max (a : EReal) (b : EReal) :=
  EReal.coe_strictMono.monotone.map_max

theorem nrm_real (x : Feat) (hx : ∀ i, ∃ r : ℝ, x i = (r : EReal)) : ∀ i, ∃ r : ℝ, nrm x i = (r : EReal) := by
  intro i
  obtain ⟨a, b, rfl⟩ : ∃ a b, i = ix2 a b := ⟨i 0, i 1, eq_ix2 i⟩
  choose r hr using hx
  have hsq : (∑ k : Fin 128, x (ix2 a k) * x (ix2 a k))
      = ((∑ k : Fin 128, r (ix2 a k) * r (ix2 a k) : ℝ) : EReal) := by
    rw [coe_sum_real]
    exact Finset.sum_congr rfl fun k _ => by rw [hr, EReal.coe_mul]
  have hq : 0 ≤ ∑ k : Fin 128, r (ix2 a k) * r (ix2 a k) := Finset.sum_nonneg fun k _ => mul_self_nonneg _
  have hpos : (0 : ℝ) < max (Real.sqrt (∑ k : Fin 128, r (ix2 a k) * r (ix2 a k))) (9223372 * (2 : ℝ) ^ (-63 : ℤ)) :=
    lt_max_of_lt_right (by positivity)
  show ∃ r : ℝ, Ideal.div (x (ix2 a b)) (max (Ideal.sqrt (∑ k : Fin 128, x (ix2 a k) * x (ix2 a k))) e12) = (r : EReal)
  rw [hsq, Ideal.sqrt_coe, if_neg (not_lt.mpr hq), e12_real, ← coe_max_real, hr, Ideal.div_coe hpos.ne', ← EReal.coe_mul]
  exact ⟨_, rfl⟩

theorem kernelOut_eq_refOut (fs ft : Feat) (ls lt : Logit) (tg : Labels)
    (hfs : ∀ i, ∃ r : ℝ, fs i = (r : EReal)) (hft : ∀ i, ∃ r : ℝ, ft i = (r : EReal))
    (hls : ∀ i, ∃ r : ℝ, ls i = (r : EReal)) (hlt : ∀ i, ∃ r : ℝ, lt i = (r : EReal))
    (hne : ∀ i : Fin 8192, ∃ j : Fin 8192, tg (ix1 j) ≠ tg (ix1 i)) :
    kernelOut fs ft ls lt tg = refOut fs ft ls lt tg := by
  have h1 := nceK_eq_nceR (nrm fs) (nrm ft) (nrm_real fs hfs) (nrm_real ft hft) tg hne
  have h2 := jsd_eq ls lt hls hlt
  show nceK _ _ _ _ + jsdK (klRow ls lt) (klRow lt ls) = nceR (nrm fs) (nrm ft) tg + jsdR ls lt
  rw [h1, h2]

end Cert.Spec

end
-- ==== Proof.Val.Reg0Val.lean ====
import proofs.«425134_j67723044323788_3_alg».proof.Proof.KI.Reg0
import proofs.«425134_j67723044323788_3_alg».proof.Proof.Spec.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal.Gen
open Idealize.ShloMosaic Idealize.ShloMosaic.TcCoe Idealize.SL.Sem Idealize.ShloMosaic.ValueIdx
open Idealize.ShloMosaic.Pipeline (Dat)
open scoped BigOperators

theorem lanesum0 (w : FVec Ideal S2048x128 .f32) (h : S2048x128.Reduces [1] S2048) (hφ : FKind.Formats .f32)
    (hacc : (0x00000000#32 : BitVec 32) = FKind.add.neutral .f32 hφ) (p : Fin 2048) :
    multiReduction (F := Ideal) .add [1] S2048 w 0x00000000#32 h hφ hacc (ix1 p) = ∑ k : Fin 128, w (ix2 p k) := by
  refine (Ideal.multiReduction_add_single w 0x00000000#32 h hφ hacc (ix1 p)).trans ?_
  refine Finset.sum_congr rfl fun k _ => congrArg w ?_
  funext a; apply Fin.ext
  match a with
  | ⟨0, _⟩ => rfl
  | ⟨1, _⟩ => rfl

theorem pay0_1_apply (x : Vec Ideal S2048x128 .f32) (p : Fin 2048) (q : Fin 128) :
    k0_pay1 (F := Ideal) x (ix2 p q)
      = Ideal.div (x (ix2 p q)) (max (Ideal.sqrt (∑ k : Fin 128, x (ix2 p k) * x (ix2 p k))) Cert.Spec.e12) := by
  unfold k0_pay1
  refine congrArg (Ideal.div (x (ix2 p q))) ?_
  refine (broadcastTo_apply _ _ (ix2 p q) (ix2 p (0 : Fin 1)) fun a => ?_).trans ?_
  · match a with
    | ⟨0, _⟩ => rfl
    | ⟨1, _⟩ => rfl
  refine congrArg (fun z => max (Ideal.sqrt z) Cert.Spec.e12) ?_
  refine (shapeCast_apply _ _ (ix2 p (0 : Fin 1)) (ix1 p) ?_).trans ?_
  · rw [Shape.rowMajor_val_one, Shape.rowMajor_val_two]; show p.val = p.val * 1 + 0; omega
  exact lanesum0 _ _ _ _ p

theorem hz0 : (![0, 0] : Fin 2 → Nat) = fun _ => 0 :=
  funext fun a => by match a with | ⟨0, _⟩ => rfl | ⟨1, _⟩ => rfl

theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

def row0 (t : Fin cfg0.N) (p : Fin 2048) : Fin 8192 :=
  ⟨t.val * 2048 + p.val, by have h4 : t.val < 4 := lt_of_lt_of_eq t.isLt N_0; have := p.isLt; omega⟩

theorem emb0_0 (t : Fin cfg0.N) (p : Fin 2048) (k : Fin 128) :
    (((cfg0.win 0).blk t).view.emb (ix2 p k : S2048x128.Idx) : S8192x128.Idx) = ix2 (row0 t p) k := by
  obtain ⟨e0, e1, e2, e3⟩ := idx_facts0 t
  funext a; apply Fin.ext
  match a with
  | ⟨0, _⟩ => show win0_0.index t (0 : Fin 2) * 2048 + 1 * p.val = t.val * 2048 + p.val; omega
  | ⟨1, _⟩ => show win0_0.index t (1 : Fin 2) * 128 + 1 * k.val = k.val; omega

theorem emb0_1 (t : Fin cfg0.N) (p : Fin 2048) (k : Fin 128) :
    (((cfg0.win 1).blk t).view.emb (ix2 p k : S2048x128.Idx) : S8192x128.Idx) = ix2 (row0 t p) k := by
  obtain ⟨e0, e1, e2, e3⟩ := idx_facts0 t
  funext a; apply Fin.ext
  match a with
  | ⟨0, _⟩ => show win0_1.index t (0 : Fin 2) * 2048 + 1 * p.val = t.val * 2048 + p.val; omega
  | ⟨1, _⟩ => show win0_1.index t (1 : Fin 2) * 128 + 1 * k.val = k.val; omega

/-- Over block `t` the payload of the rows of `X` is the block of `nrm X`: row `p` of the block is row `row0 t p` of `X`. -/
theorem flushed_nrm (X : Cert.Spec.Feat) (t : Fin cfg0.N) :
    (cfg0.win 1).cut (grid0.coords t) (out0_1 (((cfg0.win 0).blk t).view.read (Elt Ideal) X))
      = ((cfg0.win 1).blk t).view.read (Elt Ideal) (Cert.Spec.nrm X) := by
  unfold out0_1
  rw [View.canon_unit_zero hz0]
  simp only [View.ld_unit_zero (S := S2048x128) hz0]
  funext j
  obtain ⟨p, q, rfl⟩ : ∃ (p : Fin 2048) (q : Fin 128), j = ix2 p q := ⟨j 0, j 1, eq_ix2 j⟩
  show k0_pay1 (F := Ideal) (((cfg0.win 0).blk t).view.read (Elt Ideal) X) (ix2 p q)
    = Cert.Spec.nrm X (((cfg0.win 1).blk t).view.emb (ix2 p q : S2048x128.Idx))
  refine (pay0_1_apply _ p q).trans ?_
  rw [emb0_1 t p q]
  have hrow : ∀ k : Fin 128, ((cfg0.win 0).blk t).view.read (Elt Ideal) X (ix2 p k) = X (ix2 (row0 t p) k) :=
    fun k => congrArg X (emb0_0 t p k)
  simp only [hrow]
  rfl

theorem mem_blk0_1 (t : Fin cfg0.N) (i : S8192x128.Idx) :
    i ∈ ((cfg0.win 1).blk t).view.set ↔ ∀ a : Fin 2, win0_1.index t a * S2048x128.size a ≤ (i a).val ∧ (i a).val < win0_1.index t a * S2048x128.size a + S2048x128.size a := by
  show i ∈ ((View.whole main_v0).slice (win0_1.rect t)).set ↔ _
  rw [View.set_slice_whole, Rect.mem_set_unit]
  exact Iff.rfl

theorem covered0_1 (i : S8192x128.Idx) :
    ∃ t : Fin cfg0.N, (cfg0.win 1).flush t = true ∧ i ∈ ((cfg0.win 1).blk t).view.set := by
  have hi0 : (i 0).val < 8192 := (i 0).isLt
  have hi1 : (i 1).val < 128 := (i 1).isLt
  have ht : (i 0).val / 2048 < cfg0.N := by show (i 0).val / 2048 < grid0.N; rw [N_0]; omega
  obtain ⟨e0, e1, e2, e3⟩ := idx_facts0 ⟨(i 0).val / 2048, ht⟩
  refine ⟨⟨(i 0).val / 2048, ht⟩, flush0_1 _, ?_⟩
  rw [mem_blk0_1]
  intro a
  match a with
  | ⟨0, _⟩ =>
    show win0_1.index ⟨(i 0).val / 2048, ht⟩ (0 : Fin 2) * 2048 ≤ (i 0).val
      ∧ (i 0).val < win0_1.index ⟨(i 0).val / 2048, ht⟩ (0 : Fin 2) * 2048 + 2048
    have e2' : win0_1.index ⟨(i 0).val / 2048, ht⟩ (0 : Fin 2) = (i 0).val / 2048 := e2
    omega
  | ⟨1, _⟩ =>
    show win0_1.index ⟨(i 0).val / 2048, ht⟩ (1 : Fin 2) * 128 ≤ (i 1).val
      ∧ (i 1).val < win0_1.index ⟨(i 0).val / 2048, ht⟩ (1 : Fin 2) * 128 + 128
    omega

variable (V : (c : Dev nD) → (b : Ref sig .tc) → Buf (Elt Ideal) ((c : Thread nD τ).loc b))

theorem final0 (c : Dev nD) : (dat0 (F := Ideal) V c).arrAt 1 cfg0.N = Cert.Spec.nrm (V c main_arg0) :=
  (dat0 (F := Ideal) V c).arrAt_eq_of_cover 1 (Cert.Spec.nrm (V c main_arg0)) (fun t _ => by
    show (cfg0.win 1).cut (grid0.coords t) ((dat0 (F := Ideal) V c).after 1 t) = _
    rw [after0_1]; exact flushed_nrm (V c main_arg0) t) covered0_1

end Cert.KernelIdeal.Hand

end
-- ==== Proof.Val.Reg1Val.lean ====
import proofs.«425134_j67723044323788_3_alg».proof.Proof.KI.Reg1
import proofs.«425134_j67723044323788_3_alg».proof.Proof.Val.Reg0Val

noncomputable section

namespace Cert.KernelIdeal.Hand

open Cert.KernelIdeal.Gen
open Idealize.ShloMosaic Idealize.ShloMosaic.TcCoe

variable (V : (c : Dev nD) → (b : Ref sig .tc) → Buf (Elt Ideal) ((c : Thread nD τ).loc b))

/-- Region 1 has region 0's grid, blocks and payload over another pair of arrays, so `flushed_nrm` and `covered0_1` serve it as they stand. -/
theorem final1 (c : Dev nD) : (dat1 (F := Ideal) V c).arrAt 1 cfg1.N = Cert.Spec.nrm (V c main_arg1) :=
  (dat1 (F := Ideal) V c).arrAt_eq_of_cover 1 (Cert.Spec.nrm (V c main_arg1)) (fun t _ => by
    show (cfg1.win 1).cut (grid1.coords t) ((dat1 (F := Ideal) V c).after 1 t) = _
    rw [after1_1]; exact flushed_nrm (V c main_arg1) t) covered0_1

end Cert.KernelIdeal.Hand

end
-- ==== Proof.Val.LibLayout.lean ====
import Idealize.ShloMosaic.Lib.ValueIdx
import Idealize.ShloMosaic.Lib.ValueLayout

namespace Cert

open Idealize.ShloMosaic Idealize.ShloMosaic.ValueIdx

variable {α : Type}

/-- A column spread along the rows reads its one entry of the row. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector recast as a column keeps its entries. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert
-- ==== Proof.Val.Pay3.lean ====
import proofs.«425134_j67723044323788_3_alg».proof.Proof.Gen.KernelIdeal.Skeleton
import proofs.«425134_j67723044323788_3_alg».proof.Proof.Val.LibLayout
import Idealize.ShloMosaic.Lib.ValueIdx
import Idealize.ShloMosaic.Lib.ValueLayout
import Idealize.ShloMosaic.PureOps.Ideal.Laws

noncomputable section

open scoped BigOperators

namespace Cert.KernelIdeal.Hand

open Idealize.ShloMosaic Idealize.ShloMosaic.ValueIdx Cert.KernelIdeal Cert.KernelIdeal.Gen

theorem lhs_mm_0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem lhs_mm_1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q
theorem rhs_mm_0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q
theorem rhs_mm_1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

theorem mm_apply (x : FVec Ideal S1024x128 .bf16) (y : FVec Ideal S128x1024 .bf16) (p q : Fin 1024) :
    matmul dot_S1024x128_S128x1024_S1024x1024_1_0_0_1_n_n none x y (constant (F := Ideal) S1024x1024 .f32 0x00000000#32) (ix2 p q)
      = ∑ k : Fin 128, x (ix2 p k) * y (ix2 k q) := by
  simp only [matmul]
  rw [Ideal.matmul_constant_zero_apply, ← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 p q) ((contrEquiv1 dot_S1024x128_S128x1024_S1024x1024_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S1024x128_S128x1024_S1024x1024_1_0_0_1_n_n.rhsIdx (ix2 p q) ((contrEquiv1 dot_S1024x128_S128x1024_S1024x1024_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

theorem mmT_apply (x y : FVec Ideal S1024x128 .bf16) (p q : Fin 1024) :
    matmul dot_S1024x128_S128x1024_S1024x1024_1_0_0_1_n_n none x (transpose S128x1024 [1, 0] y transposes_S1024x128_p1_0_S128x1024)
      (constant (F := Ideal) S1024x1024 .f32 0x00000000#32) (ix2 p q) = ∑ k : Fin 128, x (ix2 p k) * y (ix2 q k) :=
  (mm_apply x _ p q).trans
    (Finset.sum_congr rfl fun k _ => congrArg (x (ix2 p k) * ·) (transpose_ix2_apply y _ k q))

theorem rowsum_apply (v : FVec Ideal S1024x1024 .f32) (p : Fin 1024) :
    shapeCast S1024x1 (multiReduction (F := Ideal) .add [1] S1024 v 0x00000000#32 reduces_S1024x1024_S1024 (.inl rfl) rfl)
      shapeCasts_S1024_S1024x1 (ix2 p (0 : Fin 1)) = ∑ q : Fin 1024, v (ix2 p q) := by
  refine (shapeCast_a_a1_apply _ _ p 0).trans ?_
  refine (Ideal.multiReduction_add_single v 0x00000000#32 reduces_S1024x1024_S1024 (.inl rfl) rfl (ix1 p)).trans ?_
  refine Finset.sum_congr rfl fun q _ => congrArg v ?_
  funext a
  match a with
  | ⟨0, _⟩ => rfl
  | ⟨1, _⟩ => rfl

namespace R3

theorem cmpi_eq_one_iff {w : Nat} (a b : BitVec w) : IntOp.cmpi .eq a b = 1#1 ↔ a = b := by
  constructor
  · intro h
    by_contra hne
    have hb : (a == b) = false := by simpa using hne
    simp [IntOp.cmpi, hb] at h
  · rintro rfl
    simp [IntOp.cmpi]

theorem select_cmpi_eq {α : Type} {w : Nat} (a b : BitVec w) (x y : α) :
    Scalar.select (IntOp.cmpi .eq a b) x y = if a = b then x else y := by
  show (if IntOp.cmpi .eq a b = 1#1 then x else y) = _
  by_cases h : a = b
  · rw [if_pos ((cmpi_eq_one_iff a b).2 h), if_pos h]
  · rw [if_neg (fun h' => h ((cmpi_eq_one_iff a b).1 h')), if_neg h]

theorem pay5_apply (v20 : IVec S1024x1 32) (v22 : IVec S1x1024 32) (p q : Fin 1024) :
    Gen.k3_pay5 (F := Ideal) v20 v22 (ix2 p q) = IntOp.cmpi .eq (v20 (ix2 p (0 : Fin 1))) (v22 (ix2 (0 : Fin 1) q)) := by
  unfold Gen.k3_pay5
  show IntOp.cmpi .eq
      (broadcastTo S1024x1024 (shapeCast S1024x1 v20 shapeCasts_S1024x1_S1024x1) broadcasts_S1024x1_S1024x1024 (ix2 p q))
      (broadcastTo S1024x1024 (shapeCast S1x1024 v22 shapeCasts_S1x1024_S1x1024) broadcasts_S1x1024_S1024x1024 (ix2 p q)) = _
  rw [shapeCast_self, shapeCast_self]
  exact congrArg₂ (IntOp.cmpi .eq) (broadcastTo_a1_ab_apply v20 _ p q) (broadcastTo_1b_ab_apply v22 _ p q)

abbrev kapR : EReal := ((134217728 / 13421773 : ℝ) : EReal)

theorem named_kap : (Named.named (F := Ideal) κ "inv_nce_t" (φ := .f32) 0x41200000#32 : EReal) = kapR := rfl

def psB (v3 v5 : FVec Ideal S1024x128 .bf16) (v14 : FVec Ideal S1024x1 .f32) (p q : Fin 1024) : EReal :=
  min (Ideal.exp ((∑ k : Fin 128, v3 (ix2 p k) * v5 (ix2 q k)) * kapR - kapR) * v14 (ix2 p (0 : Fin 1)))
    (Ideal.ofBits .f32 0x3F800000#32)

def tqB (v3 v5 : FVec Ideal S1024x128 .bf16) (v14 : FVec Ideal S1024x1 .f32) (v20 : IVec S1024x1 32) (v22 : IVec S1x1024 32)
    (p q : Fin 1024) : EReal :=
  0 - Ideal.log ((if v20 (ix2 p (0 : Fin 1)) = v22 (ix2 (0 : Fin 1) q) then psB v3 v5 v14 p q
      else Ideal.ofBits .f32 0x3F800000#32 - psB v3 v5 v14 p q) + Ideal.ofBits .f32 0x2EDBE6FF#32)

theorem pay6_apply (v3 v5 : FVec Ideal S1024x128 .bf16) (v14 : FVec Ideal S1024x1 .f32) (v20 : IVec S1024x1 32)
    (v22 : IVec S1x1024 32) (p q : Fin 1024) :
    Gen.k3_pay6 (F := Ideal) v3 v5 v14 v20 v22 (ix2 p q) = tqB v3 v5 v14 v20 v22 p q := by
  unfold Gen.k3_pay6
  show Ideal.ofBits .f32 0x00000000#32 - Ideal.log (Scalar.select (Gen.k3_pay5 (F := Ideal) v20 v22 (ix2 p q))
      (min (Ideal.exp (matmul dot_S1024x128_S128x1024_S1024x1024_1_0_0_1_n_n none (shapeCast S1024x128 v3 shapeCasts_S1024x128_S1024x128)
          (transpose S128x1024 [1, 0] (shapeCast S1024x128 v5 shapeCasts_S1024x128_S1024x128) transposes_S1024x128_p1_0_S128x1024)
          (constant (F := Ideal) S1024x1024 .f32 0x00000000#32) (ix2 p q) * kapR - kapR)
        * broadcastTo S1024x1024 (shapeCast S1024x1 v14 shapeCasts_S1024x1_S1024x1) broadcasts_S1024x1_S1024x1024 (ix2 p q))
        (Ideal.ofBits .f32 0x3F800000#32))
      (Ideal.ofBits .f32 0x3F800000#32 - min (Ideal.exp (matmul dot_S1024x128_S128x1024_S1024x1024_1_0_0_1_n_n none (shapeCast S1024x128 v3 shapeCasts_S1024x128_S1024x128)
          (transpose S128x1024 [1, 0] (shapeCast S1024x128 v5 shapeCasts_S1024x128_S1024x128) transposes_S1024x128_p1_0_S128x1024)
          (constant (F := Ideal) S1024x1024 .f32 0x00000000#32) (ix2 p q) * kapR - kapR)
        * broadcastTo S1024x1024 (shapeCast S1024x1 v14 shapeCasts_S1024x1_S1024x1) broadcasts_S1024x1_S1024x1024 (ix2 p q))
        (Ideal.ofBits .f32 0x3F800000#32))
      + Ideal.ofBits .f32 0x2EDBE6FF#32) = _
  rw [pay5_apply, select_cmpi_eq, shapeCast_self, shapeCast_self, shapeCast_self, mmT_apply,
    broadcastTo_a1_ab_apply v14 _ p q, Ideal.ofBits_zero_f32]
  rfl

theorem pay1_apply (v26 : IVec S1024x1024 1) (v34 : FVec Ideal S1024x1024 .f32) (v35 : FVec Ideal S1024x1 .f32) (p : Fin 1024) :
    Gen.k3_pay1 (F := Ideal) v26 v34 v35 (ix2 p (0 : Fin 1))
      = v35 (ix2 p (0 : Fin 1)) + ∑ q : Fin 1024, Scalar.select (v26 (ix2 p q)) (v34 (ix2 p q)) 0 := by
  unfold Gen.k3_pay1
  rw [shapeCast_self]
  show v35 (ix2 p (0 : Fin 1)) + shapeCast S1024x1 (multiReduction (F := Ideal) .add [1] S1024
      (select v26 v34 (broadcast S1024x1024 (Scalar.ofBits (F := Ideal) .f32 0x00000000#32))) 0x00000000#32 reduces_S1024x1024_S1024 (.inl rfl) rfl)
      shapeCasts_S1024_S1024x1 (ix2 p (0 : Fin 1)) = _
  refine congrArg (v35 (ix2 p (0 : Fin 1)) + ·) ((rowsum_apply _ p).trans ?_)
  refine Finset.sum_congr rfl fun q _ => ?_
  show Scalar.select (v26 (ix2 p q)) (v34 (ix2 p q)) (Ideal.ofBits .f32 0x00000000#32) = _
  rw [Ideal.ofBits_zero_f32]

theorem pay2_apply (v26 : IVec S1024x1024 1) (v34 : FVec Ideal S1024x1024 .f32) (v44 : FVec Ideal S1024x1 .f32) (p : Fin 1024) :
    Gen.k3_pay2 (F := Ideal) v26 v34 v44 (ix2 p (0 : Fin 1))
      = v44 (ix2 p (0 : Fin 1)) + ∑ q : Fin 1024, Scalar.select (v26 (ix2 p q)) 0 (v34 (ix2 p q)) := by
  unfold Gen.k3_pay2
  rw [shapeCast_self]
  show v44 (ix2 p (0 : Fin 1)) + shapeCast S1024x1 (multiReduction (F := Ideal) .add [1] S1024
      (select v26 (broadcast S1024x1024 (Scalar.ofBits (F := Ideal) .f32 0x00000000#32)) v34) 0x00000000#32 reduces_S1024x1024_S1024 (.inl rfl) rfl)
      shapeCasts_S1024_S1024x1 (ix2 p (0 : Fin 1)) = _
  refine congrArg (v44 (ix2 p (0 : Fin 1)) + ·) ((rowsum_apply _ p).trans ?_)
  refine Finset.sum_congr rfl fun q _ => ?_
  show Scalar.select (v26 (ix2 p q)) (Ideal.ofBits .f32 0x00000000#32) (v34 (ix2 p q)) = _
  rw [Ideal.ofBits_zero_f32]

theorem pay3_apply (j : S1024x1.Idx) : (Gen.k3_pay3 (F := Ideal)) j = 0 := by
  unfold Gen.k3_pay3
  rw [shapeCast_self]
  exact Ideal.ofBits_zero_f32
theorem pay4_apply (j : S1024x1.Idx) : (Gen.k3_pay4 (F := Ideal)) j = 0 := by
  unfold Gen.k3_pay4
  rw [shapeCast_self]
  exact Ideal.ofBits_zero_f32

theorem sum_range_block (g : ℕ → EReal) (j : ℕ) :
    ∑ n ∈ Finset.range (1024 * (j + 1)), g n
      = ∑ n ∈ Finset.range (1024 * j), g n + ∑ q : Fin 1024, g (1024 * j + q.val) := by
  rw [Nat.mul_succ, Finset.sum_range_add, Finset.sum_range (fun x => g (1024 * j + x))]

theorem sum_range_all (f : Fin 8192 → EReal) :
    ∑ n ∈ Finset.range 8192, (if h : n < 8192 then f ⟨n, h⟩ else 0) = ∑ n : Fin 8192, f n := by
  rw [Finset.sum_range]
  exact Finset.sum_congr rfl fun n _ => dif_pos n.isLt

end R3

end Cert.KernelIdeal.Hand

end
-- ==== Proof.Val.Pay2.lean ====
import proofs.«425134_j67723044323788_3_alg».proof.Proof.Gen.KernelIdeal.Skeleton
import proofs.«425134_j67723044323788_3_alg».proof.Proof.Spec.Spec
import proofs.«425134_j67723044323788_3_alg».proof.Proof.Val.Pay3
import Idealize.ShloMosaic.Lib.Pipeline.Value
import Idealize.ShloMosaic.Lib.ValueIdx
import Idealize.ShloMosaic.PureOps.Ideal.Laws

noncomputable section

open scoped BigOperators

namespace Cert.KernelIdeal.Hand.R2

open Cert.KernelIdeal Cert.KernelIdeal.Gen Idealize.ShloMosaic Idealize.ShloMosaic.ValueIdx

theorem named_kap : (Named.named (F := Ideal) κ "inv_nce_t" (φ := .f32) 0x41200000#32 : EReal) = Cert.Spec.kap := rfl

theorem pay1_apply (i : S1024x1.Idx) : (k2_pay1 (F := Ideal)) i = 0 := by
  unfold k2_pay1
  rw [shapeCast_self]
  exact Ideal.ofBits_zero_f32

theorem pay2_apply (x0 x1 : Vec Ideal S1024x128 .bf16) (acc : Vec Ideal S1024x1 .f32) (p : Fin 1024) :
    k2_pay2 (F := Ideal) x0 x1 acc (ix2 p 0)
      = acc (ix2 p 0) + ∑ q : Fin 1024, Ideal.exp ((∑ k : Fin 128, x0 (ix2 p k) * x1 (ix2 q k)) * Cert.Spec.kap - Cert.Spec.kap) := by
  unfold k2_pay2
  simp only [shapeCast_self]
  rw [addf_apply, rowsum_apply]
  refine congrArg (acc (ix2 p 0) + ·) (Finset.sum_congr rfl fun q _ => ?_)
  show Ideal.exp (_ * _ - _) = _
  rw [mmT_apply]
  simp only [broadcast_apply, named_kap]

end Cert.KernelIdeal.Hand.R2

end
-- ==== Proof.Spec.BlockSum.lean ====
import Idealize.ShloMosaic.Lib.ValueIdx

open scoped BigOperators

namespace Cert.Spec

variable {M : Type*} [AddCommMonoid M]

def blk (j : Fin 8) (q : Fin 1024) : Fin 8192 := ⟨j.val * 1024 + q.val, by omega⟩

def blkEquiv : Fin 8 × Fin 1024 ≃ Fin 8192 where
  toFun x := blk x.1 x.2
  invFun c := (⟨c.val / 1024, by omega⟩, ⟨c.val % 1024, by omega⟩)
  left_inv x := by
    obtain ⟨j, q⟩ := x
    refine Prod.ext (Fin.ext ?_) (Fin.ext ?_)
    · show (j.val * 1024 + q.val) / 1024 = j.val
      omega
    · show (j.val * 1024 + q.val) % 1024 = q.val
      omega
  right_inv c := Fin.ext (by
    show c.val / 1024 * 1024 + c.val % 1024 = c.val
    omega)

theorem sum_blk (f : Fin 8192 → M) : ∑ j : Fin 8, ∑ q : Fin 1024, f (blk j q) = ∑ c : Fin 8192, f c := by
  rw [← Fintype.sum_prod_type']
  exact Fintype.sum_equiv blkEquiv _ _ (fun _ => rfl)

def upto (j : ℕ) : Finset (Fin 8) := Finset.univ.filter fun j' => j'.val ≤ j

theorem mem_upto {j : ℕ} {j' : Fin 8} : j' ∈ upto j ↔ j'.val ≤ j := by simp [upto]

theorem sum_upto_zero (G : Fin 8 → M) : ∑ j' ∈ upto 0, G j' = G 0 := by
  have h : upto 0 = {0} := by
    ext j'
    rw [mem_upto, Finset.mem_singleton]
    exact ⟨fun h => Fin.ext (by show j'.val = 0; omega), fun h => by rw [h]; exact le_refl _⟩
  rw [h, Finset.sum_singleton]

theorem sum_upto_succ (G : Fin 8 → M) (j : ℕ) (h : j + 1 < 8) :
    ∑ j' ∈ upto (j + 1), G j' = (∑ j' ∈ upto j, G j') + G ⟨j + 1, h⟩ := by
  have hi : upto (j + 1) = insert ⟨j + 1, h⟩ (upto j) := by
    ext j'
    rw [Finset.mem_insert, mem_upto, mem_upto]
    constructor
    · intro hle
      by_cases he : j'.val = j + 1
      · exact Or.inl (Fin.ext he)
      · exact Or.inr (by omega)
    · rintro (rfl | hle)
      · exact le_refl _
      · omega
  have hn : (⟨j + 1, h⟩ : Fin 8) ∉ upto j := by
    rw [mem_upto]
    show ¬ (j + 1 ≤ j)
    omega
  rw [hi, Finset.sum_insert hn, add_comm]

theorem sum_upto_last (G : Fin 8 → M) : ∑ j' ∈ upto 7, G j' = ∑ j' : Fin 8, G j' := by
  have h : upto 7 = Finset.univ := by
    ext j'
    rw [mem_upto]
    exact ⟨fun _ => Finset.mem_univ _, fun _ => by have := j'.isLt; omega⟩
  rw [h]

end Cert.Spec
-- ==== Proof.Val.Reg2Val.lean ====
import proofs.«425134_j67723044323788_3_alg».proof.Proof.KI.Reg2
import proofs.«425134_j67723044323788_3_alg».proof.Proof.Val.Pay2
import proofs.«425134_j67723044323788_3_alg».proof.Proof.Spec.BlockSum
import Idealize.ShloMosaic.Lib.Pipeline.Value
import Idealize.ShloMosaic.Lib.Tactic

noncomputable section

namespace Cert.KernelIdeal.Hand.R2

open Cert.KernelIdeal Cert.KernelIdeal.Gen
open Idealize.ShloMosaic Idealize.ShloMosaic.TcCoe Idealize.ShloMosaic.Tactic
open Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

abbrev ablk (c : Dev nD) (t : Fin cfg2.N) : Vec Ideal S1024x128 .bf16 := iblk2 V c 0 t
abbrev bblk (c : Dev nD) (t : Fin cfg2.N) : Vec Ideal S1024x128 .bf16 := iblk2 V c 1 t
abbrev aarr (c : Dev nD) : Cert.Spec.Feat := V c main_v0
abbrev barr (c : Dev nD) : Cert.Spec.Feat := V c main_v1

theorem idx_facts2 : ∀ t : Fin cfg2.N,
    win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = t.val / 8 ∧ win2_2.index t (1 : Fin 2) = 0 :=
  (by decide +kernel : ∀ t : Fin grid2.N, _)

theorem ablk_apply (c : Dev nD) (t : Fin cfg2.N) (i j : ℕ) (hi : i < 8) (hj : j < 8) (ht : t.val = 8 * i + j)
    (p : Fin 1024) (k : Fin 128) :
    ablk V c t (ix2 p k) = aarr V c (ix2 (Cert.Spec.blk ⟨i, hi⟩ p) k) := by
  obtain ⟨e0, e1, -, -, -, -⟩ := idx_facts2 t
  show aarr V c (((cfg2.win 0).blk t).view.emb (ix2 p k)) = aarr V c (ix2 (Cert.Spec.blk ⟨i, hi⟩ p) k)
  refine congrArg (aarr V c) (funext fun a => Fin.ext ?_)
  match a with
  | ⟨0, _⟩ => show win2_0.index t (0 : Fin 2) * 1024 + 1 * p.val = i * 1024 + p.val; omega
  | ⟨1, _⟩ => show win2_0.index t (1 : Fin 2) * 128 + 1 * k.val = k.val; omega

theorem bblk_apply (c : Dev nD) (t : Fin cfg2.N) (i j : ℕ) (hi : i < 8) (hj : j < 8) (ht : t.val = 8 * i + j)
    (q : Fin 1024) (k : Fin 128) :
    bblk V c t (ix2 q k) = barr V c (ix2 (Cert.Spec.blk ⟨j, hj⟩ q) k) := by
  obtain ⟨-, -, e2, e3, -, -⟩ := idx_facts2 t
  show barr V c (((cfg2.win 1).blk t).view.emb (ix2 q k)) = barr V c (ix2 (Cert.Spec.blk ⟨j, hj⟩ q) k)
  refine congrArg (barr V c) (funext fun a => Fin.ext ?_)
  match a with
  | ⟨0, _⟩ => show win2_1.index t (0 : Fin 2) * 1024 + 1 * q.val = j * 1024 + q.val; omega
  | ⟨1, _⟩ => show win2_1.index t (1 : Fin 2) * 128 + 1 * k.val = k.val; omega

/-- Row r's sum over column block j' of exp (scaled inner product − shift). -/
def rowTerm (a b : Cert.Spec.Feat) (r : Fin 8192) (j' : Fin 8) : EReal :=
  ∑ q : Fin 1024, Ideal.exp (Cert.Spec.dot a b r (Cert.Spec.blk j' q) * Cert.Spec.kap - Cert.Spec.kap)

theorem step_apply (c : Dev nD) (t : Fin cfg2.N) (i j : ℕ) (hi : i < 8) (hj : j < 8) (ht : t.val = 8 * i + j)
    (acc : Vec Ideal S1024x1 .f32) (p : Fin 1024) :
    k2_pay2 (F := Ideal) (ablk V c t) (bblk V c t) acc (ix2 p 0)
      = acc (ix2 p 0) + rowTerm (aarr V c) (barr V c) (Cert.Spec.blk ⟨i, hi⟩ p) ⟨j, hj⟩ := by
  refine (pay2_apply (ablk V c t) (bblk V c t) acc p).trans ?_
  refine congrArg (acc (ix2 p 0) + ·) (Finset.sum_congr rfl fun q _ => ?_)
  refine congrArg (fun s => Ideal.exp (s * Cert.Spec.kap - Cert.Spec.kap)) (Finset.sum_congr rfl fun k _ => ?_)
  exact congrArg₂ (· * ·) (ablk_apply V c t i j hi hj ht p k) (bblk_apply V c t i j hi hj ht q k)

/-- After point 8 i + j the carried column holds, at row p, row 1024 i + p's sums over column blocks 0 … j: by induction along the row. -/
theorem scratch_eq (c : Dev nD) : ∀ (n : ℕ) (hn : n < cfg2.N) (i j : ℕ) (hi : i < 8) (hj : j < 8), n = 8 * i + j →
    ∀ p : Fin 1024, acc2 V c (Fin.succ ⟨n, hn⟩) (ix2 p 0)
      = ∑ j' ∈ Cert.Spec.upto j, rowTerm (aarr V c) (barr V c) (Cert.Spec.blk ⟨i, hi⟩ p) j'
  | n, hn, i, j, hi, hj, e, p => by
    rw [acc2_succ, step_apply V c ⟨n, hn⟩ i j hi hj e]
    dsimp only
    by_cases h0 : n % 8 = 0
    · obtain rfl : j = 0 := by omega
      rw [if_pos h0, pay1_apply, zero_add, Cert.Spec.sum_upto_zero]
      rfl
    · obtain ⟨j0, rfl⟩ : ∃ j0, j = j0 + 1 := ⟨j - 1, by omega⟩
      obtain ⟨m, rfl⟩ : ∃ m, n = m + 1 := ⟨n - 1, by omega⟩
      rw [if_neg h0, Cert.Spec.sum_upto_succ _ j0 hj]
      exact congrArg (· + _) (scratch_eq c m (Nat.lt_of_succ_lt hn) i j0 hi (by omega) (by omega) p)

theorem lsum_congr0 (k : EReal) (a b : Cert.Spec.Feat) (r r' : Cert.Spec.S8192x1.Idx) (h : r 0 = r' 0) :
    Cert.Spec.lsum k a b r = Cert.Spec.lsum k a b r' := by
  unfold Cert.Spec.lsum
  rw [h]

/-- At the last point 8 i + 7 of row block i the carried column holds the whole row sums of rows 1024 i …. -/
theorem out_last (c : Dev nD) (t : Fin cfg2.N) (i : ℕ) (hi : i < 8) (ht : t.val = 8 * i + 7) (y : S1024x1.Idx) :
    acc2 V c t.succ y = Cert.Spec.lsum Cert.Spec.kap (aarr V c) (barr V c) (ix2 (Cert.Spec.blk ⟨i, hi⟩ (y 0)) 0) := by
  obtain ⟨p, z, rfl⟩ : ∃ (p : Fin 1024) (z : Fin 1), y = ix2 p z := ⟨y 0, y 1, eq_ix2 y⟩
  obtain rfl : z = 0 := Subsingleton.elim _ _
  refine (scratch_eq V c t.val t.isLt i 7 hi (by decide) ht p).trans ?_
  rw [Cert.Spec.sum_upto_last]
  exact Cert.Spec.sum_blk (fun col => Ideal.exp (Cert.Spec.dot (aarr V c) (barr V c) (Cert.Spec.blk ⟨i, hi⟩ p) col * Cert.Spec.kap - Cert.Spec.kap))

theorem flushed2_eq (c : Dev nD) (t : Fin cfg2.N) (hf : (cfg2.win 2).flush t = true) :
    (dat2 V c).flushed 2 t
      = ((cfg2.win 2).blk t).view.read (Elt Ideal) (Cert.Spec.lsum Cert.Spec.kap (aarr V c) (barr V c)) := by
  have h7 : t.val % 8 = 7 := (flush2_2 t).mp hf
  have hN : t.val < 64 := lt_of_lt_of_eq t.isLt N_2
  obtain ⟨-, -, -, -, e4, e5⟩ := idx_facts2 t
  show (cfg2.win 2).cut (grid2.coords t) ((dat2 V c).after 2 t) = _
  rw [after2_2]
  funext y
  show acc2 V c t.succ y = Cert.Spec.lsum Cert.Spec.kap (aarr V c) (barr V c) (((cfg2.win 2).blk t).view.emb y)
  refine (out_last V c t (t.val / 8) (by omega) (by omega) y).trans ?_
  refine lsum_congr0 _ _ _ _ _ (Fin.ext ?_)
  show t.val / 8 * 1024 + (y 0).val = win2_2.index t (0 : Fin 2) * 1024 + 1 * (y 0).val
  omega

/-- Row r of the 8192 × 1 output lies in the block of the last point of its row block, point 8 (r / 1024) + 7. -/
theorem cover2 (c : Dev nD) (r : ((cfg2.win 2).arr.view.loc (c.tc : Thread nD τ)).2.ty.Idx) :
    ∃ t : Fin cfg2.N, (cfg2.win 2).flush t = true ∧ r ∈ ((cfg2.win 2).blk t).view.set := by
  have hr0 : (r 0 : Nat) < 8192 := (r 0).isLt
  have hr1 : (r 1 : Nat) < 1 := (r 1).isLt
  have ht : 8 * ((r 0 : Nat) / 1024) + 7 < cfg2.N := by rw [show cfg2.N = 64 from N_2]; omega
  obtain ⟨-, -, -, -, e4, e5⟩ := idx_facts2 ⟨_, ht⟩
  refine ⟨⟨_, ht⟩, (flush2_2 _).mpr (by dsimp only; omega), ?_⟩
  show r ∈ ((View.whole main_v33).slice (win2_2.rect ⟨_, ht⟩)).set
  rw [View.set_slice_whole, Rect.mem_set_unit]
  intro a
  match a with
  | ⟨0, _⟩ =>
    show win2_2.index ⟨_, ht⟩ (0 : Fin 2) * 1024 ≤ (r 0 : Nat) ∧ (r 0 : Nat) < win2_2.index ⟨_, ht⟩ (0 : Fin 2) * 1024 + 1024
    rw [e4]; dsimp only; omega
  | ⟨1, _⟩ =>
    show win2_2.index ⟨_, ht⟩ (1 : Fin 2) * 1 ≤ (r 1 : Nat) ∧ (r 1 : Nat) < win2_2.index ⟨_, ht⟩ (1 : Fin 2) * 1 + 1
    rw [e5]; omega

theorem final2 (c : Dev nD) :
    (dat2 (F := Ideal) V c).arrAt 2 cfg2.N = Cert.Spec.lsum Cert.Spec.kap (V c main_v0) (V c main_v1) :=
  (dat2 V c).arrAt_eq_of_cover 2 (Cert.Spec.lsum Cert.Spec.kap (aarr V c) (barr V c)) (flushed2_eq V c) (cover2 c)

end Cert.KernelIdeal.Hand.R2

end
-- ==== Proof.Val.Term3.lean ====
import proofs.«425134_j67723044323788_3_alg».proof.Proof.Val.Pay3
import proofs.«425134_j67723044323788_3_alg».proof.Proof.Spec.Spec

noncomputable section

open scoped BigOperators

namespace Cert.KernelIdeal.Hand.R3

open Idealize.ShloMosaic Idealize.ShloMosaic.ValueIdx Cert.KernelIdeal Cert.KernelIdeal.Gen

variable (a b : FVec Ideal S8192x128 .bf16) (linv : FVec Ideal S8192x1 .f32) (trow : IVec S8192x1 32) (tcol : IVec S1x8192 32)

section Term
variable (v3 v5 : FVec Ideal S1024x128 .bf16) (v14 : FVec Ideal S1024x1 .f32) (v20 : IVec S1024x1 32) (v22 : IVec S1x1024 32) (p q : Fin 1024) (R n : Fin 8192)
  (h3 : ∀ k : Fin 128, v3 (ix2 p k) = a (ix2 R k)) (h5 : ∀ k : Fin 128, v5 (ix2 q k) = b (ix2 n k))
  (h14 : v14 (ix2 p (0 : Fin 1)) = linv (ix2 R (0 : Fin 1)))
  (h20 : v20 (ix2 p (0 : Fin 1)) = trow (ix2 R (0 : Fin 1))) (h22 : v22 (ix2 (0 : Fin 1) q) = tcol (ix2 (0 : Fin 1) n))
include h3 h5 h14

theorem psB_eq : psB v3 v5 v14 p q = Cert.Spec.psK Cert.Spec.kap a b linv R n := by
  unfold psB Cert.Spec.psK Cert.Spec.dot
  rw [h14]
  simp only [h3, h5]

include h20 h22

theorem term_pos :
    Scalar.select (Gen.k3_pay5 (F := Ideal) v20 v22 (ix2 p q)) (Gen.k3_pay6 (F := Ideal) v3 v5 v14 v20 v22 (ix2 p q)) 0
      = if trow (ix2 R (0 : Fin 1)) = tcol (ix2 (0 : Fin 1) n) then Cert.Spec.tq Cert.Spec.kap a b linv true R n else 0 := by
  rw [pay5_apply, select_cmpi_eq, pay6_apply, h20, h22]
  by_cases h : trow (ix2 R (0 : Fin 1)) = tcol (ix2 (0 : Fin 1) n)
  · rw [if_pos h, if_pos h]
    unfold tqB Cert.Spec.tq
    rw [h20, h22, if_pos h, psB_eq a b linv v3 v5 v14 p q R n h3 h5 h14]
    rfl
  · rw [if_neg h, if_neg h]

theorem term_neg :
    Scalar.select (Gen.k3_pay5 (F := Ideal) v20 v22 (ix2 p q)) 0 (Gen.k3_pay6 (F := Ideal) v3 v5 v14 v20 v22 (ix2 p q))
      = if trow (ix2 R (0 : Fin 1)) = tcol (ix2 (0 : Fin 1) n) then 0 else Cert.Spec.tq Cert.Spec.kap a b linv false R n := by
  rw [pay5_apply, select_cmpi_eq, pay6_apply, h20, h22]
  by_cases h : trow (ix2 R (0 : Fin 1)) = tcol (ix2 (0 : Fin 1) n)
  · rw [if_pos h, if_pos h]
  · rw [if_neg h, if_neg h]
    unfold tqB Cert.Spec.tq
    rw [h20, h22, if_neg h, psB_eq a b linv v3 v5 v14 p q R n h3 h5 h14]
    rfl

end Term

def gpos (R : Fin 8192) (n : ℕ) : EReal :=
  if h : n < 8192 then
    (if trow (ix2 R (0 : Fin 1)) = tcol (ix2 (0 : Fin 1) (⟨n, h⟩ : Fin 8192)) then Cert.Spec.tq Cert.Spec.kap a b linv true R ⟨n, h⟩ else 0)
  else 0

def gneg (R : Fin 8192) (n : ℕ) : EReal :=
  if h : n < 8192 then
    (if trow (ix2 R (0 : Fin 1)) = tcol (ix2 (0 : Fin 1) (⟨n, h⟩ : Fin 8192)) then 0 else Cert.Spec.tq Cert.Spec.kap a b linv false R ⟨n, h⟩)
  else 0

theorem lpos_eq (r : S8192x1.Idx) : Cert.Spec.lpos Cert.Spec.kap a b linv trow tcol r = ∑ n ∈ Finset.range 8192, gpos a b linv trow tcol (r 0) n := by
  unfold Cert.Spec.lpos gpos
  exact (sum_range_all _).symm

theorem lneg_eq (r : S8192x1.Idx) : Cert.Spec.lneg Cert.Spec.kap a b linv trow tcol r = ∑ n ∈ Finset.range 8192, gneg a b linv trow tcol (r 0) n := by
  unfold Cert.Spec.lneg gneg
  exact (sum_range_all _).symm

section Step
variable (v3 v5 : FVec Ideal S1024x128 .bf16) (v14 : FVec Ideal S1024x1 .f32) (v20 : IVec S1024x1 32) (v22 : IVec S1x1024 32) (j : ℕ) (hj : j < 8) (p : Fin 1024) (R : Fin 8192)
  (h3 : ∀ k : Fin 128, v3 (ix2 p k) = a (ix2 R k))
  (h5 : ∀ (q : Fin 1024) (k : Fin 128), v5 (ix2 q k) = b (ix2 (⟨1024 * j + q.val, by have := q.isLt; omega⟩ : Fin 8192) k))
  (h14 : v14 (ix2 p (0 : Fin 1)) = linv (ix2 R (0 : Fin 1)))
  (h20 : v20 (ix2 p (0 : Fin 1)) = trow (ix2 R (0 : Fin 1)))
  (h22 : ∀ q : Fin 1024, v22 (ix2 (0 : Fin 1) q) = tcol (ix2 (0 : Fin 1) (⟨1024 * j + q.val, by have := q.isLt; omega⟩ : Fin 8192)))
  (acc : EReal)
include hj h3 h5 h14 h20 h22

theorem step_pos (hacc : acc = ∑ n ∈ Finset.range (1024 * j), gpos a b linv trow tcol R n) :
    acc + ∑ q : Fin 1024, Scalar.select (Gen.k3_pay5 (F := Ideal) v20 v22 (ix2 p q))
        (Gen.k3_pay6 (F := Ideal) v3 v5 v14 v20 v22 (ix2 p q)) 0
      = ∑ n ∈ Finset.range (1024 * (j + 1)), gpos a b linv trow tcol R n := by
  rw [sum_range_block, hacc]
  refine congrArg (_ + ·) (Finset.sum_congr rfl fun q _ => ?_)
  have hq : 1024 * j + q.val < 8192 := by have := q.isLt; omega
  refine (term_pos a b linv trow tcol v3 v5 v14 v20 v22 p q R ⟨1024 * j + q.val, hq⟩ h3 (h5 q) h14 h20 (h22 q)).trans ?_
  unfold gpos
  rw [dif_pos hq]

theorem step_neg (hacc : acc = ∑ n ∈ Finset.range (1024 * j), gneg a b linv trow tcol R n) :
    acc + ∑ q : Fin 1024, Scalar.select (Gen.k3_pay5 (F := Ideal) v20 v22 (ix2 p q)) 0
        (Gen.k3_pay6 (F := Ideal) v3 v5 v14 v20 v22 (ix2 p q))
      = ∑ n ∈ Finset.range (1024 * (j + 1)), gneg a b linv trow tcol R n := by
  rw [sum_range_block, hacc]
  refine congrArg (_ + ·) (Finset.sum_congr rfl fun q _ => ?_)
  have hq : 1024 * j + q.val < 8192 := by have := q.isLt; omega
  refine (term_neg a b linv trow tcol v3 v5 v14 v20 v22 p q R ⟨1024 * j + q.val, hq⟩ h3 (h5 q) h14 h20 (h22 q)).trans ?_
  unfold gneg
  rw [dif_pos hq]

end Step

end Cert.KernelIdeal.Hand.R3

end
-- ==== Proof.Val.Blk3.lean ====
import proofs.«425134_j67723044323788_3_alg».proof.Proof.Gen.KernelIdeal.Launch
import proofs.«425134_j67723044323788_3_alg».proof.Proof.Gen.KernelIdeal.Points
import Idealize.ShloMosaic.Lib.Pipeline.Value
import Idealize.ShloMosaic.Lib.ValueIdx

noncomputable section

namespace Cert.KernelIdeal.Hand.R3

open Idealize.ShloMosaic Idealize.ShloMosaic.TcCoe Idealize.ShloMosaic.ValueIdx Cert.KernelIdeal Cert.KernelIdeal.Gen

theorem idx_facts3 : ∀ t : Fin cfg3.N,
    win3_0.index t (0 : Fin 2) = t.val / 8 ∧ win3_0.index t (1 : Fin 2) = 0
    ∧ win3_1.index t (0 : Fin 2) = t.val % 8 ∧ win3_1.index t (1 : Fin 2) = 0
    ∧ win3_2.index t (0 : Fin 2) = t.val / 8 ∧ win3_2.index t (1 : Fin 2) = 0
    ∧ win3_3.index t (0 : Fin 2) = t.val / 8 ∧ win3_3.index t (1 : Fin 2) = 0
    ∧ win3_4.index t (0 : Fin 2) = 0 ∧ win3_4.index t (1 : Fin 2) = t.val % 8
    ∧ win3_5.index t (0 : Fin 2) = t.val / 8 ∧ win3_5.index t (1 : Fin 2) = 0
    ∧ win3_6.index t (0 : Fin 2) = t.val / 8 ∧ win3_6.index t (1 : Fin 2) = 0 :=
  (by decide +kernel : ∀ t : Fin grid3.N, _)

theorem N3 : cfg3.N = 64 := N_3

def rowOf (t : Fin cfg3.N) (p : Fin 1024) : Fin 8192 :=
  ⟨1024 * (t.val / 8) + p.val, by have h : t.val < 64 := lt_of_lt_of_eq t.isLt N3; have := p.isLt; omega⟩

def colOf (t : Fin cfg3.N) (q : Fin 1024) : Fin 8192 :=
  ⟨1024 * (t.val % 8) + q.val, by have := q.isLt; omega⟩

theorem blk0_apply (A : FVec Ideal S8192x128 .bf16) (t : Fin cfg3.N) (p : Fin 1024) (k : Fin 128) :
    (((cfg3.win 0).blk t).view.read (Elt Ideal) A : FVec Ideal S1024x128 .bf16) (ix2 p k) = A (ix2 (rowOf t p) k) := by
  rw [View.read_apply]
  obtain ⟨e0, e1, -⟩ := idx_facts3 t
  refine congrArg A (funext fun a => Fin.ext ?_)
  match a with
  | ⟨0, _⟩ => show win3_0.index t (0 : Fin 2) * 1024 + 1 * p.val = 1024 * (t.val / 8) + p.val; rw [e0]; omega
  | ⟨1, _⟩ => show win3_0.index t (1 : Fin 2) * 128 + 1 * k.val = k.val; rw [e1]; omega

theorem blk1_apply (A : FVec Ideal S8192x128 .bf16) (t : Fin cfg3.N) (q : Fin 1024) (k : Fin 128) :
    (((cfg3.win 1).blk t).view.read (Elt Ideal) A : FVec Ideal S1024x128 .bf16) (ix2 q k) = A (ix2 (colOf t q) k) := by
  rw [View.read_apply]
  obtain ⟨-, -, e0, e1, -⟩ := idx_facts3 t
  refine congrArg A (funext fun a => Fin.ext ?_)
  match a with
  | ⟨0, _⟩ => show win3_1.index t (0 : Fin 2) * 1024 + 1 * q.val = 1024 * (t.val % 8) + q.val; rw [e0]; omega
  | ⟨1, _⟩ => show win3_1.index t (1 : Fin 2) * 128 + 1 * k.val = k.val; rw [e1]; omega

theorem blk2_apply (A : FVec Ideal S8192x1 .f32) (t : Fin cfg3.N) (p : Fin 1024) :
    (((cfg3.win 2).blk t).view.read (Elt Ideal) A : FVec Ideal S1024x1 .f32) (ix2 p (0 : Fin 1)) = A (ix2 (rowOf t p) (0 : Fin 1)) := by
  rw [View.read_apply]
  obtain ⟨-, -, -, -, e0, e1, -⟩ := idx_facts3 t
  refine congrArg A (funext fun a => Fin.ext ?_)
  match a with
  | ⟨0, _⟩ => show win3_2.index t (0 : Fin 2) * 1024 + 1 * p.val = 1024 * (t.val / 8) + p.val; rw [e0]; omega
  | ⟨1, _⟩ => show win3_2.index t (1 : Fin 2) * 1 + 1 * 0 = 0; rw [e1]

theorem blk3_apply (A : IVec S8192x1 32) (t : Fin cfg3.N) (p : Fin 1024) :
    (((cfg3.win 3).blk t).view.read (Elt Ideal) A : IVec S1024x1 32) (ix2 p (0 : Fin 1)) = A (ix2 (rowOf t p) (0 : Fin 1)) := by
  rw [View.read_apply]
  obtain ⟨-, -, -, -, -, -, e0, e1, -⟩ := idx_facts3 t
  refine congrArg A (funext fun a => Fin.ext ?_)
  match a with
  | ⟨0, _⟩ => show win3_3.index t (0 : Fin 2) * 1024 + 1 * p.val = 1024 * (t.val / 8) + p.val; rw [e0]; omega
  | ⟨1, _⟩ => show win3_3.index t (1 : Fin 2) * 1 + 1 * 0 = 0; rw [e1]

theorem blk4_apply (A : IVec S1x8192 32) (t : Fin cfg3.N) (q : Fin 1024) :
    (((cfg3.win 4).blk t).view.read (Elt Ideal) A : IVec S1x1024 32) (ix2 (0 : Fin 1) q) = A (ix2 (0 : Fin 1) (colOf t q)) := by
  rw [View.read_apply]
  obtain ⟨-, -, -, -, -, -, -, -, e0, e1, -⟩ := idx_facts3 t
  refine congrArg A (funext fun a => Fin.ext ?_)
  match a with
  | ⟨0, _⟩ => show win3_4.index t (0 : Fin 2) * 1 + 1 * 0 = 0; rw [e0]
  | ⟨1, _⟩ => show win3_4.index t (1 : Fin 2) * 1024 + 1 * q.val = 1024 * (t.val % 8) + q.val; rw [e1]; omega

theorem blk5_apply (A : FVec Ideal S8192x1 .f32) (t : Fin cfg3.N) (p : Fin 1024) :
    (((cfg3.win 5).blk t).view.read (Elt Ideal) A : FVec Ideal S1024x1 .f32) (ix2 p (0 : Fin 1)) = A (ix2 (rowOf t p) (0 : Fin 1)) :=
  blk2_apply A t p

theorem blk6_apply (A : FVec Ideal S8192x1 .f32) (t : Fin cfg3.N) (p : Fin 1024) :
    (((cfg3.win 6).blk t).view.read (Elt Ideal) A : FVec Ideal S1024x1 .f32) (ix2 p (0 : Fin 1)) = A (ix2 (rowOf t p) (0 : Fin 1)) :=
  blk5_apply A t p

theorem mem_blk5 (t : Fin cfg3.N) (i : S8192x1.Idx) :
    i ∈ ((cfg3.win 5).blk t).view.set ↔ ∀ a : Fin 2, win3_5.index t a * S1024x1.size a ≤ (i a).val ∧ (i a).val < win3_5.index t a * S1024x1.size a + S1024x1.size a := by
  show i ∈ ((View.whole main_v36_0).slice (win3_5.rect t)).set ↔ _
  rw [View.set_slice_whole, Rect.mem_set_unit]
  exact Iff.rfl

theorem cover3_5 (i : S8192x1.Idx) : ∃ t : Fin cfg3.N, (cfg3.win 5).flush t = true ∧ i ∈ ((cfg3.win 5).blk t).view.set := by
  have hi0 : (i 0).val < 8192 := (i 0).isLt
  have hi1 : (i 1).val < 1 := (i 1).isLt
  have hb : 8 * ((i 0).val / 1024) + 7 < cfg3.N := by rw [N3]; omega
  refine ⟨⟨8 * ((i 0).val / 1024) + 7, hb⟩, (flush3_5 _).mpr (by show (8 * ((i 0).val / 1024) + 7) % 8 = 7; omega), ?_⟩
  rw [mem_blk5]
  obtain ⟨-, -, -, -, -, -, -, -, -, -, e0, e1, -⟩ := idx_facts3 ⟨8 * ((i 0).val / 1024) + 7, hb⟩
  intro a
  match a with
  | ⟨0, _⟩ =>
    show win3_5.index ⟨8 * ((i 0).val / 1024) + 7, hb⟩ (0 : Fin 2) * 1024 ≤ (i 0).val ∧ (i 0).val < win3_5.index ⟨8 * ((i 0).val / 1024) + 7, hb⟩ (0 : Fin 2) * 1024 + 1024
    rw [e0]; show (8 * ((i 0).val / 1024) + 7) / 8 * 1024 ≤ (i 0).val ∧ (i 0).val < (8 * ((i 0).val / 1024) + 7) / 8 * 1024 + 1024; omega
  | ⟨1, _⟩ =>
    show win3_5.index ⟨8 * ((i 0).val / 1024) + 7, hb⟩ (1 : Fin 2) * 1 ≤ (i 1).val ∧ (i 1).val < win3_5.index ⟨8 * ((i 0).val / 1024) + 7, hb⟩ (1 : Fin 2) * 1 + 1
    rw [e1]; omega

theorem cover3_6 (i : S8192x1.Idx) : ∃ t : Fin cfg3.N, (cfg3.win 6).flush t = true ∧ i ∈ ((cfg3.win 6).blk t).view.set :=
  let ⟨t, hf, hm⟩ := cover3_5 i
  ⟨t, (flush3_6 t).mpr ((flush3_5 t).mp hf), hm⟩

end Cert.KernelIdeal.Hand.R3

end
-- ==== Proof.Val.Reg3Val.lean ====
import proofs.«425134_j67723044323788_3_alg».proof.Proof.KI.Reg3
import proofs.«425134_j67723044323788_3_alg».proof.Proof.Val.Term3
import proofs.«425134_j67723044323788_3_alg».proof.Proof.Val.Blk3
import Idealize.ShloMosaic.Lib.Pipeline.Value
import Idealize.ShloMosaic.Lib.Tactic

noncomputable section

open scoped BigOperators

namespace Cert.KernelIdeal.Hand.R3

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable (V : (c : Dev nD) → (b : Ref sig .tc) → Buf (Elt Ideal) ((c : Thread nD τ).loc b))

abbrev aArr (c : Dev nD) : FVec Ideal S8192x128 .bf16 := V c main_v0
abbrev bArr (c : Dev nD) : FVec Ideal S8192x128 .bf16 := V c main_v1
abbrev lArr (c : Dev nD) : FVec Ideal S8192x1 .f32 := V c main_v35
abbrev rArr (c : Dev nD) : IVec S8192x1 32 := V c main_v31
abbrev cArr (c : Dev nD) : IVec S1x8192 32 := V c main_v32
abbrev ablk (c : Dev nD) (t : Fin cfg3.N) : FVec Ideal S1024x128 .bf16 := iblk3 V c 0 t
abbrev bblk (c : Dev nD) (t : Fin cfg3.N) : FVec Ideal S1024x128 .bf16 := iblk3 V c 1 t
abbrev lblk (c : Dev nD) (t : Fin cfg3.N) : FVec Ideal S1024x1 .f32 := iblk3 V c 2 t
abbrev rblk (c : Dev nD) (t : Fin cfg3.N) : IVec S1024x1 32 := iblk3 V c 3 t
abbrev cblk (c : Dev nD) (t : Fin cfg3.N) : IVec S1x1024 32 := iblk3 V c 4 t

-- If the two columns, restarted where z holds, are at local row p row `rowOf t p`'s terms over the columns before point t's block, one update makes it up to and including that block.
theorem step3 (c : Dev nD) (t : Fin cfg3.N) (p : Fin 1024) (z : Prop) [Decidable z] (acc : FVec Ideal S1024x1 .f32 × FVec Ideal S1024x1 .f32)
    (h0 : (if z then k3_pay3 else acc.1) (ix2 p (0 : Fin 1)) = ∑ m ∈ Finset.range (1024 * (t.val % 8)), gpos (aArr V c) (bArr V c) (lArr V c) (rArr V c) (cArr V c) (rowOf t p) m)
    (h1 : (if z then k3_pay4 else acc.2) (ix2 p (0 : Fin 1)) = ∑ m ∈ Finset.range (1024 * (t.val % 8)), gneg (aArr V c) (bArr V c) (lArr V c) (rArr V c) (cArr V c) (rowOf t p) m) :
    (upd3 (F := Ideal) (ablk V c t) (bblk V c t) (lblk V c t) (rblk V c t) (cblk V c t) z acc).1 (ix2 p (0 : Fin 1)) = ∑ m ∈ Finset.range (1024 * (t.val % 8 + 1)), gpos (aArr V c) (bArr V c) (lArr V c) (rArr V c) (cArr V c) (rowOf t p) m
    ∧ (upd3 (F := Ideal) (ablk V c t) (bblk V c t) (lblk V c t) (rblk V c t) (cblk V c t) z acc).2 (ix2 p (0 : Fin 1)) = ∑ m ∈ Finset.range (1024 * (t.val % 8 + 1)), gneg (aArr V c) (bArr V c) (lArr V c) (rArr V c) (cArr V c) (rowOf t p) m :=
  have hj : t.val % 8 < 8 := Nat.mod_lt _ (by decide)
  ⟨(pay1_apply _ _ _ p).trans (step_pos (aArr V c) (bArr V c) (lArr V c) (rArr V c) (cArr V c) (ablk V c t) (bblk V c t) (lblk V c t) (rblk V c t) (cblk V c t) (t.val % 8) hj p (rowOf t p)
      (fun k => blk0_apply (V c main_v0) t p k) (fun q k => blk1_apply (V c main_v1) t q k) (blk2_apply (V c main_v35) t p) (blk3_apply (V c main_v31) t p)
      (fun q => blk4_apply (V c main_v32) t q) _ h0),
    (pay2_apply _ _ _ p).trans (step_neg (aArr V c) (bArr V c) (lArr V c) (rArr V c) (cArr V c) (ablk V c t) (bblk V c t) (lblk V c t) (rblk V c t) (cblk V c t) (t.val % 8) hj p (rowOf t p)
      (fun k => blk0_apply (V c main_v0) t p k) (fun q k => blk1_apply (V c main_v1) t q k) (blk2_apply (V c main_v35) t p) (blk3_apply (V c main_v31) t p)
      (fun q => blk4_apply (V c main_v32) t q) _ h1)⟩

-- After point n the two columns hold, at local row p, the two kinds of terms of row `rowOf n p` over the first 1024 * (n % 8 + 1) columns.
theorem inv3 (c : Dev nD) (n : ℕ) (h : n < cfg3.N) (p : Fin 1024) :
    (acc3 V c n h).1 (ix2 p (0 : Fin 1)) = ∑ m ∈ Finset.range (1024 * (n % 8 + 1)), gpos (aArr V c) (bArr V c) (lArr V c) (rArr V c) (cArr V c) (rowOf ⟨n, h⟩ p) m
    ∧ (acc3 V c n h).2 (ix2 p (0 : Fin 1)) = ∑ m ∈ Finset.range (1024 * (n % 8 + 1)), gneg (aArr V c) (bArr V c) (lArr V c) (rArr V c) (cArr V c) (rowOf ⟨n, h⟩ p) m := by
  rw [show acc3 V c n h = _ from acc3_eq V c ⟨n, h⟩]
  by_cases h0 : n % 8 = 0
  · refine step3 V c ⟨n, h⟩ p _ _ ?_ ?_ <;> rw [if_pos h0]
    · exact (pay3_apply _).trans (by show (0 : EReal) = ∑ m ∈ Finset.range (1024 * (n % 8)), _; rw [h0]; simp)
    · exact (pay4_apply _).trans (by show (0 : EReal) = ∑ m ∈ Finset.range (1024 * (n % 8)), _; rw [h0]; simp)
  · obtain ⟨i0, i1⟩ := inv3 c (n - 1) (Nat.lt_of_le_of_lt (Nat.sub_le _ _) h) p
    have hr : rowOf ⟨n - 1, Nat.lt_of_le_of_lt (Nat.sub_le _ _) h⟩ p = rowOf ⟨n, h⟩ p := Fin.ext (by
      show 1024 * ((n - 1) / 8) + p.val = 1024 * (n / 8) + p.val; omega)
    have hm : (n - 1) % 8 + 1 = n % 8 := by omega
    rw [hr, hm] at i0 i1
    refine step3 V c ⟨n, h⟩ p _ _ ?_ ?_ <;> rw [if_neg h0] <;> assumption
termination_by n
decreasing_by omega

theorem outs_last (c : Dev nD) (t : Fin cfg3.N) (h7 : t.val % 8 = 7) (p : Fin 1024) :
    (acc3 V c t.val t.isLt).1 (ix2 p (0 : Fin 1)) = Cert.Spec.lpos Cert.Spec.kap (aArr V c) (bArr V c) (lArr V c) (rArr V c) (cArr V c) (ix2 (rowOf t p) (0 : Fin 1))
    ∧ (acc3 V c t.val t.isLt).2 (ix2 p (0 : Fin 1)) = Cert.Spec.lneg Cert.Spec.kap (aArr V c) (bArr V c) (lArr V c) (rArr V c) (cArr V c) (ix2 (rowOf t p) (0 : Fin 1)) := by
  obtain ⟨i0, i1⟩ := inv3 V c t.val t.isLt p
  rw [show 1024 * (t.val % 8 + 1) = 8192 by omega] at i0 i1
  exact ⟨i0.trans (lpos_eq (aArr V c) (bArr V c) (lArr V c) (rArr V c) (cArr V c) (ix2 (rowOf t p) (0 : Fin 1))).symm,
    i1.trans (lneg_eq (aArr V c) (bArr V c) (lArr V c) (rArr V c) (cArr V c) (ix2 (rowOf t p) (0 : Fin 1))).symm⟩

theorem flushed3_5 (c : Dev nD) (t : Fin cfg3.N) (hf : (cfg3.win 5).flush t = true) :
    (dat3 (F := Ideal) V c).flushed 5 t = ((cfg3.win 5).blk t).view.read (Elt Ideal) (Cert.Spec.lpos Cert.Spec.kap (aArr V c) (bArr V c) (lArr V c) (rArr V c) (cArr V c)) := by
  show (cfg3.win 5).cut (grid3.coords t) (acc3 V c t.val t.isLt).1 = _
  funext y
  obtain ⟨p, z, rfl⟩ : ∃ (p : Fin 1024) (z : Fin 1), y = ix2 p z := ⟨y 0, y 1, eq_ix2 y⟩
  obtain rfl : z = 0 := Subsingleton.elim _ _
  exact (outs_last V c t ((flush3_5 t).mp hf) p).1.trans (blk5_apply _ t p).symm

theorem flushed3_6 (c : Dev nD) (t : Fin cfg3.N) (hf : (cfg3.win 6).flush t = true) :
    (dat3 (F := Ideal) V c).flushed 6 t = ((cfg3.win 6).blk t).view.read (Elt Ideal) (Cert.Spec.lneg Cert.Spec.kap (aArr V c) (bArr V c) (lArr V c) (rArr V c) (cArr V c)) := by
  show (cfg3.win 6).cut (grid3.coords t) (acc3 V c t.val t.isLt).2 = _
  funext y
  obtain ⟨p, z, rfl⟩ : ∃ (p : Fin 1024) (z : Fin 1), y = ix2 p z := ⟨y 0, y 1, eq_ix2 y⟩
  obtain rfl : z = 0 := Subsingleton.elim _ _
  exact (outs_last V c t ((flush3_6 t).mp hf) p).2.trans (blk6_apply _ t p).symm

theorem final3_5 (c : Dev nD) : (dat3 (F := Ideal) V c).arrAt 5 cfg3.N
    = Cert.Spec.lpos Cert.Spec.kap (V c main_v0) (V c main_v1) (V c main_v35) (V c main_v31) (V c main_v32) :=
  (dat3 (F := Ideal) V c).arrAt_eq_of_cover 5 _ (flushed3_5 V c) cover3_5

theorem final3_6 (c : Dev nD) : (dat3 (F := Ideal) V c).arrAt 6 cfg3.N
    = Cert.Spec.lneg Cert.Spec.kap (V c main_v0) (V c main_v1) (V c main_v35) (V c main_v31) (V c main_v32) :=
  (dat3 (F := Ideal) V c).arrAt_eq_of_cover 6 _ (flushed3_6 V c) cover3_6

end Cert.KernelIdeal.Hand.R3

end
-- ==== Proof.Val.Reg4Val.lean ====
import proofs.«425134_j67723044323788_3_alg».proof.Proof.KI.Reg4
import proofs.«425134_j67723044323788_3_alg».proof.Proof.Spec.Spec
import proofs.«425134_j67723044323788_3_alg».proof.Proof.Val.LibLayout
import Idealize.ShloMosaic.Lib.Pipeline.Value
import Idealize.ShloMosaic.Lib.ValueLayout
import Idealize.ShloMosaic.Lib.IdealHost
import Idealize.ShloMosaic.PureOps.Ideal.Laws

set_option maxRecDepth 16384

noncomputable section

open scoped BigOperators

namespace Cert.KernelIdeal.Hand.R4

open Cert.KernelIdeal.Gen
open Idealize.ShloMosaic Idealize.ShloMosaic.TcCoe Idealize.ShloMosaic.ValueIdx Idealize.SL.Sem
open Idealize.ShloMosaic.Pipeline (Dat)

def rowMax (p : Fin 1000 → EReal) : EReal := (Finset.univ : Finset (Fin 1000)).fold max ⊥ p

def rowZ (p : Fin 1000 → EReal) (c : Fin 1000) : EReal := p c - rowMax p

def rowE (p : Fin 1000 → EReal) : EReal := ∑ c : Fin 1000, Ideal.exp (rowZ p c)

def rowL (p : Fin 1000 → EReal) (c : Fin 1000) : EReal := rowZ p c - Ideal.log (rowE p)

def rowS (p : Fin 1000 → EReal) (c : Fin 1000) : EReal := Ideal.div (Ideal.exp (rowZ p c)) (rowE p)

def rowKL (p q : Fin 1000 → EReal) : EReal := ∑ c : Fin 1000, rowS q c * (rowL q c - rowL p c)

theorem klRow_eq_rowKL (x y : Cert.Spec.Logit) (r : Cert.Spec.S8192x1.Idx) :
    Cert.Spec.klRow x y r = rowKL (fun c => x (ix2 (r 0) c)) (fun c => y (ix2 (r 0) c)) := rfl

theorem ofBits_ninf_f32 : Ideal.ofBits .f32 0xFF800000#32 = ⊥ := by simp [Ideal.ofBits, Ideal.ieee]

theorem lift_row (r : Fin 512) (c : Fin 1000) :
    (reduces_S512x1000_S512).lift (ix1 r) c = (ix2 r c : S512x1000.Idx) := by
  funext a; apply Fin.ext
  match a with
  | ⟨0, _⟩ => rfl
  | ⟨1, _⟩ => rfl

theorem laneSum_apply (src : FVec Ideal S512x1000 .f32) (r : Fin 512) :
    multiReduction .add [1] S512 src 0x00000000#32 reduces_S512x1000_S512 (.inl rfl) rfl (ix1 r) = ∑ c : Fin 1000, src (ix2 r c) := by
  refine (Ideal.multiReduction_add_single src 0x00000000#32 reduces_S512x1000_S512 (.inl rfl) rfl (ix1 r)).trans ?_
  exact Finset.sum_congr rfl fun c _ => congrArg src (lift_row r c)

theorem laneMax_apply (src : FVec Ideal S512x1000 .f32) (r : Fin 512) :
    multiReduction .maximumf [1] S512 src 0xFF800000#32 reduces_S512x1000_S512 (.inl rfl) rfl (ix1 r) = rowMax (fun c => src (ix2 r c)) := by
  refine (Ideal.multiReduction_maximumf_single src 0xFF800000#32 reduces_S512x1000_S512 (.inl rfl) rfl (ix1 r)).trans ?_
  have hf : (src ∘ (reduces_S512x1000_S512).lift (ix1 r)) = fun c : Fin 1000 => src (ix2 r c) :=
    funext fun c => congrArg src (lift_row r c)
  show (Finset.univ : Finset (Fin 1000)).fold max (Ideal.ofBits .f32 0xFF800000#32) (src ∘ (reduces_S512x1000_S512).lift (ix1 r)) = _
  rw [hf, ofBits_ninf_f32]
  rfl

def timesOne (x : FVec Ideal S512x1000 .f32) : FVec Ideal S512x1000 .f32 :=
  mulf x (broadcast S512x1000 (Scalar.ofBits .f32 0x3F800000#32))

def maxCol (y : FVec Ideal S512x1000 .f32) : FVec Ideal S512x1 .f32 :=
  shapeCast S512x1 (multiReduction .maximumf [1] S512 y 0xFF800000#32 reduces_S512x1000_S512 (.inl rfl) rfl) shapeCasts_S512_S512x1

def sumCol (y : FVec Ideal S512x1000 .f32) : FVec Ideal S512x1 .f32 :=
  shapeCast S512x1 (multiReduction .add [1] S512 y 0x00000000#32 reduces_S512x1000_S512 (.inl rfl) rfl) shapeCasts_S512_S512x1

def spread (v : FVec Ideal S512x1 .f32) : FVec Ideal S512x1000 .f32 :=
  broadcastTo S512x1000 v broadcasts_S512x1_S512x1000

theorem timesOne_eq (x : FVec Ideal S512x1000 .f32) : timesOne x = x := by
  funext i
  show x i * Ideal.ofBits .f32 0x3F800000#32 = x i
  rw [Ideal.ofBits_one_f32, mul_one]

theorem maxCol_apply (y : FVec Ideal S512x1000 .f32) (r : Fin 512) : maxCol y (ix2 r (0 : Fin 1)) = rowMax (fun c => y (ix2 r c)) :=
  (shapeCast_a_a1_apply _ shapeCasts_S512_S512x1 r 0).trans (laneMax_apply y r)

theorem sumCol_apply (y : FVec Ideal S512x1000 .f32) (r : Fin 512) : sumCol y (ix2 r (0 : Fin 1)) = ∑ c : Fin 1000, y (ix2 r c) :=
  (shapeCast_a_a1_apply _ shapeCasts_S512_S512x1 r 0).trans (laneSum_apply y r)

theorem spread_apply (v : FVec Ideal S512x1 .f32) (r : Fin 512) (c : Fin 1000) : spread v (ix2 r c) = v (ix2 r (0 : Fin 1)) :=
  broadcastTo_a1_ab_apply v broadcasts_S512x1_S512x1000 r c

theorem pay1_eq (x : FVec Ideal S512x1000 .f32) : k4_pay1 (F := Ideal) x = subf (timesOne x) (spread (maxCol (timesOne x))) := rfl
theorem pay3_eq (x : FVec Ideal S512x1000 .f32) : k4_pay3 (F := Ideal) x = exp (k4_pay1 x) := rfl
theorem pay5_eq (x : FVec Ideal S512x1000 .f32) : k4_pay5 (F := Ideal) x = sumCol (k4_pay3 x) := rfl
theorem pay7_eq (x : FVec Ideal S512x1000 .f32) : k4_pay7 (F := Ideal) x = subf (k4_pay1 x) (spread (log (k4_pay5 x))) := rfl

theorem pay9_eq (x0 x1 : FVec Ideal S512x1000 .f32) :
    k4_pay9 (F := Ideal) x0 x1 = sumCol (mulf (divf (k4_pay3 x1) (spread (k4_pay5 x1))) (subf (k4_pay7 x1) (k4_pay7 x0))) := rfl
theorem pay10_eq (x0 x1 : FVec Ideal S512x1000 .f32) :
    k4_pay10 (F := Ideal) x0 x1 = sumCol (mulf (divf (k4_pay3 x0) (spread (k4_pay5 x0))) (subf (k4_pay7 x0) (k4_pay7 x1))) := rfl

theorem pay1_apply (x : FVec Ideal S512x1000 .f32) (r : Fin 512) (c : Fin 1000) :
    k4_pay1 (F := Ideal) x (ix2 r c) = rowZ (fun c => x (ix2 r c)) c := by
  rw [pay1_eq, timesOne_eq]
  show x (ix2 r c) - spread (maxCol x) (ix2 r c) = _
  rw [spread_apply, maxCol_apply]
  rfl

theorem pay3_apply (x : FVec Ideal S512x1000 .f32) (r : Fin 512) (c : Fin 1000) :
    k4_pay3 (F := Ideal) x (ix2 r c) = Ideal.exp (rowZ (fun c => x (ix2 r c)) c) := by
  rw [pay3_eq]
  show Ideal.exp (k4_pay1 (F := Ideal) x (ix2 r c)) = _
  rw [pay1_apply]

theorem pay5_apply (x : FVec Ideal S512x1000 .f32) (r : Fin 512) :
    k4_pay5 (F := Ideal) x (ix2 r (0 : Fin 1)) = rowE (fun c => x (ix2 r c)) := by
  rw [pay5_eq, sumCol_apply]
  exact Finset.sum_congr rfl fun c _ => pay3_apply x r c

theorem pay7_apply (x : FVec Ideal S512x1000 .f32) (r : Fin 512) (c : Fin 1000) :
    k4_pay7 (F := Ideal) x (ix2 r c) = rowL (fun c => x (ix2 r c)) c := by
  rw [pay7_eq]
  show k4_pay1 (F := Ideal) x (ix2 r c) - spread (log (k4_pay5 (F := Ideal) x)) (ix2 r c) = _
  rw [spread_apply, pay1_apply]
  show _ - Ideal.log (k4_pay5 (F := Ideal) x (ix2 r (0 : Fin 1))) = _
  rw [pay5_apply]
  rfl

theorem summand_apply (p q : FVec Ideal S512x1000 .f32) (r : Fin 512) (c : Fin 1000) :
    mulf (divf (k4_pay3 (F := Ideal) q) (spread (k4_pay5 (F := Ideal) q))) (subf (k4_pay7 (F := Ideal) q) (k4_pay7 (F := Ideal) p)) (ix2 r c)
      = rowS (fun c => q (ix2 r c)) c * (rowL (fun c => q (ix2 r c)) c - rowL (fun c => p (ix2 r c)) c) := by
  show Ideal.div (k4_pay3 (F := Ideal) q (ix2 r c)) (spread (k4_pay5 (F := Ideal) q) (ix2 r c))
      * (k4_pay7 (F := Ideal) q (ix2 r c) - k4_pay7 (F := Ideal) p (ix2 r c)) = _
  rw [spread_apply, pay3_apply, pay5_apply, pay7_apply, pay7_apply]
  rfl

theorem pay9_apply (x0 x1 : FVec Ideal S512x1000 .f32) (r : Fin 512) :
    k4_pay9 (F := Ideal) x0 x1 (ix2 r (0 : Fin 1)) = rowKL (fun c => x0 (ix2 r c)) (fun c => x1 (ix2 r c)) := by
  rw [pay9_eq, sumCol_apply]
  exact Finset.sum_congr rfl fun c _ => summand_apply x0 x1 r c

theorem pay10_apply (x0 x1 : FVec Ideal S512x1000 .f32) (r : Fin 512) :
    k4_pay10 (F := Ideal) x0 x1 (ix2 r (0 : Fin 1)) = rowKL (fun c => x1 (ix2 r c)) (fun c => x0 (ix2 r c)) := by
  rw [pay10_eq, sumCol_apply]
  exact Finset.sum_congr rfl fun c _ => summand_apply x1 x0 r c

variable (V : (c : Dev nD) → (b : Ref sig .tc) → Buf (Elt Ideal) ((c : Thread nD τ).loc b))

abbrev xarr (c : Dev nD) : FVec Ideal S8192x1000 .f32 := V c main_arg2
abbrev yarr (c : Dev nD) : FVec Ideal S8192x1000 .f32 := V c main_arg3
abbrev xblk (c : Dev nD) (t : Fin cfg4.N) : FVec Ideal S512x1000 .f32 := iblk4 V c 0 t
abbrev yblk (c : Dev nD) (t : Fin cfg4.N) : FVec Ideal S512x1000 .f32 := iblk4 V c 1 t

theorem origin2 : (![0, 0] : Fin 2 → Nat) = fun _ => 0 := funext fun a => by fin_cases a <;> rfl

theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

def row4 (t : Fin cfg4.N) (r : Fin 512) : Fin 8192 :=
  ⟨t.val * 512 + r.val, by have := lt_of_lt_of_eq t.isLt N_4; have := r.isLt; omega⟩

/-- Row r of point t's input blocks is row 512 t + r of the arrays, and so is row r of both output blocks. -/
theorem blk_row (c : Dev nD) (t : Fin cfg4.N) (r : Fin 512) (k : Fin 1000) :
    xblk V c t (ix2 r k) = xarr V c (ix2 (row4 t r) k) ∧ yblk V c t (ix2 r k) = yarr V c (ix2 (row4 t r) k) := by
  obtain ⟨e00, e01, e10, e11, -⟩ := idx_facts4 t
  refine ⟨congrArg (V c main_arg2) (funext fun a => Fin.ext ?_), congrArg (V c main_arg3) (funext fun a => Fin.ext ?_)⟩
  · match a with
    | ⟨0, _⟩ => show win4_0.index t (0 : Fin 2) * 512 + 1 * r.val = t.val * 512 + r.val; omega
    | ⟨1, _⟩ => show win4_0.index t (1 : Fin 2) * 1000 + 1 * k.val = k.val; omega
  · match a with
    | ⟨0, _⟩ => show win4_1.index t (0 : Fin 2) * 512 + 1 * r.val = t.val * 512 + r.val; omega
    | ⟨1, _⟩ => show win4_1.index t (1 : Fin 2) * 1000 + 1 * k.val = k.val; omega

theorem emb_out (t : Fin cfg4.N) (r : Fin 512) :
    (((cfg4.win 2).blk t).view.emb (ix2 r (0 : Fin 1)) : S8192x1.Idx) = ix2 (row4 t r) 0
      ∧ (((cfg4.win 3).blk t).view.emb (ix2 r (0 : Fin 1)) : S8192x1.Idx) = ix2 (row4 t r) 0 := by
  obtain ⟨-, -, -, -, e20, e21, e30, e31⟩ := idx_facts4 t
  refine ⟨funext fun a => Fin.ext ?_, funext fun a => Fin.ext ?_⟩
  · match a with
    | ⟨0, _⟩ => show win4_2.index t (0 : Fin 2) * 512 + 1 * r.val = t.val * 512 + r.val; omega
    | ⟨1, _⟩ => show win4_2.index t (1 : Fin 2) * 1 + 1 * 0 = 0; omega
  · match a with
    | ⟨0, _⟩ => show win4_3.index t (0 : Fin 2) * 512 + 1 * r.val = t.val * 512 + r.val; omega
    | ⟨1, _⟩ => show win4_3.index t (1 : Fin 2) * 1 + 1 * 0 = 0; omega

theorem kl_blk (c : Dev nD) (t : Fin cfg4.N) (r : Fin 512) :
    rowKL (fun k => xblk V c t (ix2 r k)) (fun k => yblk V c t (ix2 r k)) = Cert.Spec.klRow (xarr V c) (yarr V c) (ix2 (row4 t r) 0)
      ∧ rowKL (fun k => yblk V c t (ix2 r k)) (fun k => xblk V c t (ix2 r k)) = Cert.Spec.klRow (yarr V c) (xarr V c) (ix2 (row4 t r) 0) := by
  rw [klRow_eq_rowKL, klRow_eq_rowKL, funext fun k => (blk_row V c t r k).1, funext fun k => (blk_row V c t r k).2]
  exact ⟨rfl, rfl⟩

theorem flushed4_2_eq (c : Dev nD) (t : Fin cfg4.N) :
    (dat4 V c).flushed 2 t = ((cfg4.win 2).blk t).view.read (Elt Ideal) (Cert.Spec.klRow (xarr V c) (yarr V c)) := by
  show (cfg4.win 2).cut (grid4.coords t) ((dat4 V c).after 2 t) = _
  rw [after4_2]
  unfold out4_2
  rw [View.canon_unit_zero origin2]
  simp only [View.ld_unit_zero (S := S512x1000) origin2]
  funext (j : S512x1.Idx)
  obtain ⟨r, u, rfl⟩ : ∃ (r : Fin 512) (u : Fin 1), j = ix2 r u := ⟨j 0, j 1, eq_ix2 j⟩
  obtain rfl : u = 0 := Subsingleton.elim _ _
  show k4_pay9 (F := Ideal) (xblk V c t) (yblk V c t) (ix2 r (0 : Fin 1))
    = Cert.Spec.klRow (xarr V c) (yarr V c) (((cfg4.win 2).blk t).view.emb (ix2 r (0 : Fin 1)))
  rw [pay9_apply, (emb_out t r).1, (kl_blk V c t r).1]

theorem flushed4_3_eq (c : Dev nD) (t : Fin cfg4.N) :
    (dat4 V c).flushed 3 t = ((cfg4.win 3).blk t).view.read (Elt Ideal) (Cert.Spec.klRow (yarr V c) (xarr V c)) := by
  show (cfg4.win 3).cut (grid4.coords t) ((dat4 V c).after 3 t) = _
  rw [after4_3]
  unfold out4_3
  rw [View.canon_unit_zero origin2]
  simp only [View.ld_unit_zero (S := S512x1000) origin2]
  funext (j : S512x1.Idx)
  obtain ⟨r, u, rfl⟩ : ∃ (r : Fin 512) (u : Fin 1), j = ix2 r u := ⟨j 0, j 1, eq_ix2 j⟩
  obtain rfl : u = 0 := Subsingleton.elim _ _
  show k4_pay10 (F := Ideal) (xblk V c t) (yblk V c t) (ix2 r (0 : Fin 1))
    = Cert.Spec.klRow (yarr V c) (xarr V c) (((cfg4.win 3).blk t).view.emb (ix2 r (0 : Fin 1)))
  rw [pay10_apply, (emb_out t r).2, (kl_blk V c t r).2]

/-- Every row of the 8192 lies in the block of the point its index divides to. -/
theorem covered4 (i : S8192x1.Idx) : ∃ t : Fin cfg4.N, (i ∈ ((cfg4.win 2).blk t).view.set) ∧ (i ∈ ((cfg4.win 3).blk t).view.set) := by
  have hi0 : (i 0).val < 8192 := (i 0).isLt
  have hi1 : (i 1).val < 1 := (i 1).isLt
  have hN : cfg4.N = 16 := N_4
  obtain ⟨t, ht⟩ : ∃ t : Fin cfg4.N, t.val = (i 0).val / 512 := ⟨⟨(i 0).val / 512, by rw [hN]; omega⟩, rfl⟩
  obtain ⟨-, -, -, -, e20, e21, e30, e31⟩ := idx_facts4 t
  refine ⟨t, ?_, ?_⟩
  · show i ∈ ((View.whole main_v44_0).slice (win4_2.rect t)).set
    rw [View.set_slice_whole, Rect.mem_set_unit]
    intro a
    match a with
    | ⟨0, _⟩ => show win4_2.index t (0 : Fin 2) * 512 ≤ (i 0).val ∧ (i 0).val < win4_2.index t (0 : Fin 2) * 512 + 512; omega
    | ⟨1, _⟩ => show win4_2.index t (1 : Fin 2) * 1 ≤ (i 1).val ∧ (i 1).val < win4_2.index t (1 : Fin 2) * 1 + 1; omega
  · show i ∈ ((View.whole main_v44_1).slice (win4_3.rect t)).set
    rw [View.set_slice_whole, Rect.mem_set_unit]
    intro a
    match a with
    | ⟨0, _⟩ => show win4_3.index t (0 : Fin 2) * 512 ≤ (i 0).val ∧ (i 0).val < win4_3.index t (0 : Fin 2) * 512 + 512; omega
    | ⟨1, _⟩ => show win4_3.index t (1 : Fin 2) * 1 ≤ (i 1).val ∧ (i 1).val < win4_3.index t (1 : Fin 2) * 1 + 1; omega

theorem final4_2 (c : Dev nD) : (dat4 (F := Ideal) V c).arrAt 2 cfg4.N = Cert.Spec.klRow (V c main_arg2) (V c main_arg3) :=
  (dat4 V c).arrAt_eq_of_cover 2 (Cert.Spec.klRow (xarr V c) (yarr V c)) (fun t _ => flushed4_2_eq V c t)
    fun i => (covered4 i).imp fun t h => ⟨flush4_2 t, h.1⟩

theorem final4_3 (c : Dev nD) : (dat4 (F := Ideal) V c).arrAt 3 cfg4.N = Cert.Spec.klRow (V c main_arg3) (V c main_arg2) :=
  (dat4 V c).arrAt_eq_of_cover 3 (Cert.Spec.klRow (yarr V c) (xarr V c)) (fun t _ => flushed4_3_eq V c t)
    fun i => (covered4 i).imp fun t h => ⟨flush4_3 t, h.2⟩

end Cert.KernelIdeal.Hand.R4

end
-- ==== Proof.LibScatterGather.lean ====
import Idealize.ShloMosaic.PureOps.Ideal
import Idealize.ShloMosaic.PureOps.Ideal.Laws
import Idealize.ShloMosaic.Lib.ValueIdxRank1
import Idealize.ShloMosaic.Lib.StableHlo.Predicate

noncomputable section

namespace Cert.LibScatterGather

open Idealize.ShloMosaic Idealize.ShloMosaic.ValueIdx

theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

abbrev vecDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

theorem vec_landing {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (a : Fin 1) :
    (vecDims N M wf).start j idx a + ((vecDims N M wf).window j a : ℤ) = (idx (ix2 (j 0) (0 : Fin 1))).toInt := by
  obtain rfl : a = 0 := Subsingleton.elim _ _
  unfold ScatterDims.start ScatterDims.window
  rw [dif_pos (show (0 : Fin 1) ∈ (vecDims N M wf).scatterDimsToOperandDims from List.mem_singleton.mpr rfl),
    dif_neg (show (0 : Fin 1) ∉ (vecDims N M wf).sKept by
      show (0 : Fin 1) ∉ (List.finRange 1).filter (· ∉ [0]); decide)]
  have hsi : (vecDims N M wf).siIdx j ⟨List.idxOf (0 : Fin 1) (vecDims N M wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  simp

theorem vec_resultIdx {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (i : Fin N) :
    (vecDims N M wf).resultIdx? j idx = some (ix1 i) ↔ (idx (ix2 (j 0) (0 : Fin 1))).toInt = (i.val : ℤ) := by
  have hl := vec_landing wf idx j
  unfold ScatterDims.resultIdx?
  constructor
  · intro h
    split at h
    · next hc =>
      have h0 := congrFun (Option.some.inj h) 0
      have h1 := congrArg Fin.val h0
      simp only at h1
      have := hc 0
      rw [← hl 0]
      change ((vecDims N M wf).start j idx 0 + ((vecDims N M wf).window j 0 : ℤ)).toNat = i.val at h1
      omega
    · exact absurd h (by simp)
  · intro h
    have hc : ∀ a, 0 ≤ (vecDims N M wf).start j idx a + ((vecDims N M wf).window j a : ℤ) ∧
        (vecDims N M wf).start j idx a + ((vecDims N M wf).window j a : ℤ) < ((⟨1, ![N]⟩ : Shape).size a : ℤ) := by
      intro a
      obtain rfl : a = 0 := Subsingleton.elim _ _
      rw [hl 0, h]
      have := i.isLt
      constructor
      · omega
      · show (i.val : ℤ) < (N : ℤ); omega
    rw [dif_pos hc]
    congr 1
    funext a
    obtain rfl : a = 0 := Subsingleton.elim _ _
    refine Fin.ext ?_
    show ((vecDims N M wf).start j idx 0 + ((vecDims N M wf).window j 0 : ℤ)).toNat = i.val
    rw [hl 0, h]; simp

theorem scatterAdd_vec_apply {N M w : Nat} {φ : FTy} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![M, 1]⟩ w) (upd : FVec Ideal ⟨1, ![M]⟩ φ) (i : Fin N) :
    Host.scatterAdd d x idx upd (ix1 i)
      = x (ix1 i) + ∑ e : Fin M, if (idx (ix2 e (0 : Fin 1))).toInt = (i.val : ℤ) then upd (ix1 e) else 0 := by
  obtain ⟨uw, iw, sd, ivd, wf⟩ := d
  simp only at huw hiw hsd hivd
  subst huw hiw hsd hivd
  show Ideal.hostScatterAdd (vecDims N M wf) x idx upd (ix1 i) = _
  unfold Ideal.hostScatterAdd
  congr 1
  rw [Finset.sum_filter, sum_idx1]
  refine Finset.sum_congr rfl fun e _ => ?_
  exact if_congr (vec_resultIdx wf idx (ix1 e) i) rfl rfl

end Cert.LibScatterGather

end
-- ==== Proof.Val.LibCount.lean ====
import proofs.«425134_j67723044323788_3_alg».proof.Proof.LibScatterGather
import Idealize.ShloMosaic.Lib.IdealHost
import Idealize.ShloMosaic.Lib.StableHlo.Predicate
import Mathlib.Algebra.BigOperators.Ring.Finset

noncomputable section

open scoped BigOperators

namespace Cert.LibCount

open Idealize.ShloMosaic Idealize.ShloMosaic.ValueIdx Idealize.ShloMosaic.StableHlo.Predicate Cert.LibScatterGather

theorem ofFin_eq_ix1 {n : Nat} (k : Fin n) : Shape.Idx.ofFin k = ix1 k := by
  funext a
  obtain rfl : a = 0 := Subsingleton.elim _ _
  exact Fin.ext rfl

theorem ixP_eq_ix2 {n : Nat} (p : Fin n) : ixP p = ix2 p (0 : Fin 1) := by
  funext a
  match a with
  | ⟨0, _⟩ => rfl
  | ⟨1, _⟩ => rfl

theorem scatter_ones_apply {N M w : Nat} {φ : FTy} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![M, 1]⟩ w) (upd : FVec Ideal ⟨1, ![M]⟩ φ)
    (hx : ∀ i, x i = (0 : EReal)) (hu : ∀ e, upd e = (1 : EReal)) (i : Fin N) :
    Host.scatterAdd d x idx upd (ix1 i)
      = (((Finset.univ.filter fun e : Fin M => (idx (ix2 e (0 : Fin 1))).toInt = (i.val : ℤ)).card : ℕ) : EReal) := by
  rw [scatterAdd_vec_apply d huw hiw hsd hivd, hx, zero_add]
  simp only [hu]
  exact Finset.sum_boole _ _

theorem gather_scatter_ones_apply {N M w : Nat} {φ : FTy} (dS : ScatterDims ⟨1, ![N]⟩ ⟨2, ![M, 1]⟩ ⟨1, ![M]⟩)
    (huw : dS.updateWindowDims = []) (hiw : dS.insertedWindowDims = [0]) (hsd : dS.scatterDimsToOperandDims = [0])
    (hivd : dS.indexVectorDim = 1)
    (dG : GatherDims ⟨1, ![N]⟩ ⟨2, ![M, 1]⟩ ⟨1, ![M]⟩)
    (hcoll : dG.collapsedSliceDims = [0]) (hob : dG.operandBatchingDims = []) (hsim : dG.startIndexMap = [0])
    (hgiv : dG.indexVectorDim = 1)
    (x : FVec Ideal ⟨1, ![N]⟩ φ) (idxS idxG : IVec ⟨2, ![M, 1]⟩ w) (upd : FVec Ideal ⟨1, ![M]⟩ φ)
    (hx : ∀ i, x i = (0 : EReal)) (hu : ∀ e, upd e = (1 : EReal)) (p : Fin M)
    (hlo : 0 ≤ (idxG (ix2 p (0 : Fin 1))).toInt) (hhi : (idxG (ix2 p (0 : Fin 1))).toInt < (N : ℤ)) :
    Host.gather dG (Host.scatterAdd dS x idxS upd) idxG (ix1 p)
      = (((Finset.univ.filter fun e : Fin M =>
          (idxS (ix2 e (0 : Fin 1))).toInt = (idxG (ix2 p (0 : Fin 1))).toInt).card : ℕ) : EReal) := by
  have hN : 0 < N := by omega
  rw [← ofFin_eq_ix1, gather_take dG hcoll hob hsim hgiv _ idxG p hN, ofFin_eq_ix1,
    scatter_ones_apply dS huw hiw hsd hivd x idxS upd hx hu]
  have hm : ((min (idxG (ixP p)).toInt.toNat (N - 1) : ℕ) : ℤ) = (idxG (ix2 p (0 : Fin 1))).toInt := by
    rw [ixP_eq_ix2]; omega
  simp only [hm]

end Cert.LibCount

end
-- ==== Proof.Val.HostVal.lean ====
import proofs.«425134_j67723044323788_3_alg».proof.Proof.Gen.KernelIdeal.Launch
import proofs.«425134_j67723044323788_3_alg».proof.Proof.Spec.Spec
import proofs.«425134_j67723044323788_3_alg».proof.Proof.Val.LibCount
import Idealize.ShloMosaic.Lib.StableHlo.Run
import Idealize.ShloMosaic.Lib.IdealHost
import Idealize.ShloMosaic.Lib.Pipeline.Value
import Idealize.ShloMosaic.Lib.ValueLayout

noncomputable section

open scoped BigOperators

namespace Cert.KernelIdeal.Hand

open Idealize.ShloMosaic Idealize.ShloMosaic.ValueIdx Cert.KernelIdeal Cert.KernelIdeal.Gen

theorem colAsVec_apply {α : Type} (x : S8192x1.Idx → α) (a : Fin 8192) :
    shapeCast S8192 x shapeCasts_S8192x1_S8192 (ix1 a) = x (ix2 a (0 : Fin 1)) :=
  shapeCast_apply x _ _ _ (by
    rw [Shape.rowMajor_val_two, Shape.rowMajor_val_one]
    show a.val * 1 + 0 = a.val
    omega)

theorem vecAsCol_apply {α : Type} (x : S8192.Idx → α) (r : S8192x1.Idx) :
    shapeCast S8192x1 x shapeCasts_S8192_S8192x1 r = x (ix1 (r 0)) :=
  shapeCast_apply x _ _ _ (by
    rw [Shape.rowMajor_val_two, Shape.rowMajor_val_one]
    have h1 : (r 1).val < 1 := idx2_lt1 r
    show (r 0).val = (r 0).val * 1 + (r 1).val
    omega)

theorem vecAsRow_apply {α : Type} (x : S8192.Idx → α) (r : S1x8192.Idx) :
    shapeCast S1x8192 x shapeCasts_S8192_S1x8192 r = x (ix1 (r 1)) :=
  shapeCast_apply x _ _ _ (by
    rw [Shape.rowMajor_val_two, Shape.rowMajor_val_one]
    have h0 : (r 0).val < 1 := idx2_lt0 r
    show (r 1).val = (r 0).val * 8192 + (r 1).val
    omega)

theorem v31_eq (W : Valuation τ sig (Elt Ideal)) :
    (StableHlo.after (hostOps2 (F := Ideal)) W (Proc.devRef .tc main_v31) : S8192x1.Idx → BitVec 32)
      = Cert.Spec.trowOf (W (Proc.devRef .tc main_arg4)) := by
  after_results_simp
  funext r
  exact vecAsCol_apply _ r

theorem v32_eq (W : Valuation τ sig (Elt Ideal)) :
    (StableHlo.after (hostOps2 (F := Ideal)) W (Proc.devRef .tc main_v32) : S1x8192.Idx → BitVec 32)
      = Cert.Spec.tcolOf (W (Proc.devRef .tc main_arg4)) := by
  after_results_simp
  funext r
  exact vecAsRow_apply _ r

theorem bcastConst_apply (w : BitVec 32) (j : S8192.Idx) :
    (broadcastInDim S8192 ![] bcast_S_S8192 (constant (F := Ideal) S_ .f32 w) : S8192.Idx → EReal) j
      = Ideal.ofBits .f32 w := by
  rw [broadcastInDim_scalar_apply]; rfl

theorem bcastWord_apply (w : BitVec 32) (j : S8192.Idx) :
    (broadcastInDim S8192 ![] bcast_S_S8192 (constantI S_ 32 w) : S8192.Idx → BitVec 32) j = w := by
  rw [broadcastInDim_scalar_apply]; rfl

abbrev wrap (t : S8192.Idx → BitVec 32) : S8192.Idx → BitVec 32 :=
  select (cmpi .slt t (broadcastInDim S8192 ![] bcast_S_S8192 (constantI S_ 32 0#32)))
    (addi t (broadcastInDim S8192 ![] bcast_S_S8192 (constantI S_ 32 8192#32))) t

theorem wrap_apply (t : S8192.Idx → BitVec 32) (j : S8192.Idx) (h : 0 ≤ (t j).toInt) : wrap t j = t j := by
  show Scalar.select (IntOp.cmpi .slt (t j)
      ((broadcastInDim S8192 ![] bcast_S_S8192 (constantI S_ 32 0#32) : S8192.Idx → BitVec 32) j)) _ (t j) = t j
  rw [bcastWord_apply]
  have hs : IntOp.cmpi .slt (t j) 0#32 = 0#1 := by
    show BitVec.ofBool ((t j).slt 0#32) = 0#1
    have : (t j).slt 0#32 = false := by
      simp only [BitVec.slt, BitVec.toInt_zero, decide_eq_false_iff_not, not_lt]
      exact h
    rw [this]; rfl
  rw [hs, select_zero]

theorem wrapCol_apply (t : S8192.Idx → BitVec 32) (p : Fin 8192) (h : 0 ≤ (t (ix1 p)).toInt) :
    (broadcastInDim S8192x1 ![0] bcast_S8192_S8192x1_0 (wrap t) : S8192x1.Idx → BitVec 32) (ix2 p (0 : Fin 1))
      = t (ix1 p) := by
  rw [broadcastInDim_apply ![0] bcast_S8192_S8192x1_0 (wrap t) (ix2 p (0 : Fin 1)) (ix1 p) (fun a => by
    obtain rfl : a = 0 := Subsingleton.elim _ _
    show p.val = if (8192 : ℕ) = 1 then 0 else p.val
    rw [if_neg (by decide)])]
  exact wrap_apply t (ix1 p) h

theorem countBack_apply (t : S8192.Idx → BitVec 32) (hrng : ∀ i, 0 ≤ (t i).toInt ∧ (t i).toInt < 8192)
    (i : S8192.Idx) :
    (Host.gather gather_S8192_S8192x1_S8192_n_0_n_n_0_1_1
      (Host.scatterAdd scatter_S8192_S8192x1_S8192_n_0_0_1
        (broadcastInDim S8192 ![] bcast_S_S8192 (constant (F := Ideal) S_ .f32 0x00000000#32))
        (broadcastInDim S8192x1 ![0] bcast_S8192_S8192x1_0 (wrap t))
        (broadcastInDim S8192 ![] bcast_S_S8192 (constant (F := Ideal) S_ .f32 0x3F800000#32)))
      (broadcastInDim S8192x1 ![0] bcast_S8192_S8192x1_0 (wrap t)) : S8192.Idx → EReal) i
      = ((Cert.Spec.cnt t (i 0) : ℕ) : EReal) := by
  obtain ⟨a, rfl⟩ : ∃ a, i = ix1 a := ⟨i 0, eq_ix1 i⟩
  have hw := wrapCol_apply t a (hrng _).1
  rw [Cert.LibCount.gather_scatter_ones_apply scatter_S8192_S8192x1_S8192_n_0_0_1 rfl rfl rfl rfl
    gather_S8192_S8192x1_S8192_n_0_n_n_0_1_1 rfl rfl rfl rfl _ _ _ _
    (fun j => (bcastConst_apply _ j).trans Ideal.ofBits_zero_f32)
    (fun e => (bcastConst_apply _ e).trans Ideal.ofBits_one_f32) a
    (by rw [hw]; exact (hrng _).1) (by rw [hw]; exact_mod_cast (hrng _).2)]
  show _ = (((Finset.univ.filter fun j : Fin 8192 => t (ix1 j) = t (ix1 a)).card : ℕ) : EReal)
  congr 2
  refine Finset.filter_congr fun e _ => ?_
  rw [wrapCol_apply t e (hrng _).1, hw]
  exact BitVec.toInt_inj

theorem v19_apply (W : Valuation τ sig (Elt Ideal))
    (hrng : ∀ i : S8192.Idx, 0 ≤ ((W (Proc.devRef .tc main_arg4) : S8192.Idx → BitVec 32) i).toInt
      ∧ ((W (Proc.devRef .tc main_arg4) : S8192.Idx → BitVec 32) i).toInt < 8192) (i : S8192.Idx) :
    (StableHlo.after (hostOps2 (F := Ideal)) W (Proc.devRef .tc main_v19) : S8192.Idx → EReal) i
      = max ((Cert.Spec.cnt (W (Proc.devRef .tc main_arg4)) (i 0) : ℕ) : EReal) Cert.Spec.one := by
  after_results_simp
  rw [maximumf_apply, countBack_apply _ hrng, bcastConst_apply]

theorem v30_apply (W : Valuation τ sig (Elt Ideal))
    (hrng : ∀ i : S8192.Idx, 0 ≤ ((W (Proc.devRef .tc main_arg4) : S8192.Idx → BitVec 32) i).toInt
      ∧ ((W (Proc.devRef .tc main_arg4) : S8192.Idx → BitVec 32) i).toInt < 8192) (i : S8192.Idx) :
    (StableHlo.after (hostOps2 (F := Ideal)) W (Proc.devRef .tc main_v30) : S8192.Idx → EReal) i
      = max (Cert.Spec.n8192 - ((Cert.Spec.cnt (W (Proc.devRef .tc main_arg4)) (i 0) : ℕ) : EReal)) Cert.Spec.one := by
  after_results_simp
  rw [maximumf_apply, subf_apply, countBack_apply _ hrng, bcastConst_apply, bcastConst_apply]

theorem v35_apply (W : Valuation τ sig (Elt Ideal)) (r : S8192x1.Idx) :
    (StableHlo.after (hostOps3 (F := Ideal)) W (Proc.devRef .tc main_v35) : S8192x1.Idx → EReal) r
      = Ideal.div Cert.Spec.one ((W (Proc.devRef .tc main_v33) : S8192x1.Idx → EReal) r) := by
  after_results
  rw [hostDivf_apply, broadcastInDim_scalar_apply]
  rfl

theorem v43_apply (W : Valuation τ sig (Elt Ideal)) :
    (StableHlo.after (hostOps4 (F := Ideal)) W (Proc.devRef .tc main_v43) : S_.Idx → EReal) ix0
      = Cert.Spec.nceK (W (Proc.devRef .tc main_v36_0)) (W (Proc.devRef .tc main_v36_1))
          (fun i => (W (Proc.devRef .tc main_v19) : S8192.Idx → EReal) (ix1 i))
          (fun i => (W (Proc.devRef .tc main_v30) : S8192.Idx → EReal) (ix1 i)) := by
  after_results_simp
  rw [hostDivf_apply, hostReduceAdd_apply, Ideal.hostReduceAdd_total _ (fun b => b.elim0), Cert.LibScatterGather.sum_idx1]
  unfold Cert.Spec.nceK
  refine congrArg₂ Ideal.div (congrArg₂ (· + ·) Ideal.ofBits_zero_f32 (Finset.sum_congr rfl fun a _ => ?_)) rfl
  show Ideal.div (shapeCast S8192 (W (Proc.devRef .tc main_v36_0)) shapeCasts_S8192x1_S8192 (ix1 a)) _
      + Ideal.div (shapeCast S8192 (W (Proc.devRef .tc main_v36_1)) shapeCasts_S8192x1_S8192 (ix1 a)) _ = _
  rw [colAsVec_apply, colAsVec_apply]

abbrev nceOf (W : Valuation τ sig (Elt Ideal)) : EReal := W (Proc.devRef .tc main_v43) ix0

theorem v53_apply (W : Valuation τ sig (Elt Ideal)) :
    (StableHlo.after (hostOps5 (F := Ideal)) W (Proc.devRef .tc main_v53) : S_.Idx → EReal) ix0
      = nceOf W + Cert.Spec.jsdK (W (Proc.devRef .tc main_v44_0)) (W (Proc.devRef .tc main_v44_1)) := by
  after_results_simp
  show nceOf W
      + Cert.Spec.half * (Ideal.div (Ideal.hostReduceAdd reducesTo_S8192x1_S_d0_1 (W (Proc.devRef .tc main_v44_0))
            (Ideal.ofBits .f32 0x00000000#32) ix0 * Cert.Spec.one) Cert.Spec.n8192
        + Ideal.div (Ideal.hostReduceAdd reducesTo_S8192x1_S_d0_1 (W (Proc.devRef .tc main_v44_1))
            (Ideal.ofBits .f32 0x00000000#32) ix0 * Cert.Spec.one) Cert.Spec.n8192) = _
  rw [Ideal.hostReduceAdd_total _ (fun b => b.elim0), Ideal.hostReduceAdd_total _ (fun b => b.elim0),
    Ideal.ofBits_zero_f32]
  rfl

end Cert.KernelIdeal.Hand

end
-- ==== Proof.Val.KernelVal.lean ====
import proofs.«425134_j67723044323788_3_alg».proof.Proof.KI.Run
import proofs.«425134_j67723044323788_3_alg».proof.Proof.Val.Reg0Val
import proofs.«425134_j67723044323788_3_alg».proof.Proof.Val.Reg1Val
import proofs.«425134_j67723044323788_3_alg».proof.Proof.Val.Reg2Val
import proofs.«425134_j67723044323788_3_alg».proof.Proof.Val.Reg3Val
import proofs.«425134_j67723044323788_3_alg».proof.Proof.Val.Reg4Val
import proofs.«425134_j67723044323788_3_alg».proof.Proof.Val.HostVal
import proofs.«425134_j67723044323788_3_alg».proof.Proof.Spec.Spec

noncomputable section

namespace Cert.KernelIdeal.Hand

open Cert.KernelIdeal.Gen
open Idealize.ShloMosaic Idealize.ShloMosaic.TcCoe Idealize.ShloMosaic.ValueIdx

variable (m : (ℓ : Loc nD τ sig) → Buf (Elt Ideal) ℓ) (ρ : Dev nD → PrngReg) (c : Dev nD)

theorem W2_main_arg4 : W2 m ρ c main_arg4 = W0 m ρ c main_arg4 :=
  (W2_keep m ρ c _ (by decide)).trans (W1_keep m ρ c _ (by decide))

theorem W7_main_arg2 : W7 m ρ c main_arg2 = W0 m ρ c main_arg2 :=
  ((W9_of m ρ c _ (by decide)).trans (W8_keep m ρ c _ (by decide))).symm.trans (W9_main_arg2 m ρ c)
theorem W7_main_arg3 : W7 m ρ c main_arg3 = W0 m ρ c main_arg3 :=
  ((W9_of m ρ c _ (by decide)).trans (W8_keep m ρ c _ (by decide))).symm.trans (W9_main_arg3 m ρ c)

theorem W3_main_v0 : W3 m ρ c main_v0 = Cert.Spec.nrm (W0 m ρ c main_arg0) :=
  (W3_of m ρ c _ (by decide)).trans <| (W2_keep m ρ c _ (by decide)).trans <| (exitW_arr _ _ c launch0.win.arr_inj 1).trans (final0 _ c)
theorem W3_main_v1 : W3 m ρ c main_v1 = Cert.Spec.nrm (W0 m ρ c main_arg1) :=
  (W3_of m ρ c _ (by decide)).trans <| (exitW_arr _ _ c launch1.win.arr_inj 1).trans <| (final1 _ c).trans (congrArg Cert.Spec.nrm (W1_keep m ρ c _ (by decide)))

theorem W5_of_W3 (b : Ref sig .tc) (h : b ∉ hostOps3_W ∧ NotOut cfg2 b) :
    W5 m ρ c b = W3 m ρ c b :=
  (W5_of m ρ c b h.1).trans (W4_keep m ρ c b h.2)

theorem W5_main_v0 : W5 m ρ c main_v0 = Cert.Spec.nrm (W0 m ρ c main_arg0) :=
  (W5_of_W3 m ρ c _ (by decide)).trans (W3_main_v0 m ρ c)
theorem W5_main_v1 : W5 m ρ c main_v1 = Cert.Spec.nrm (W0 m ρ c main_arg1) :=
  (W5_of_W3 m ρ c _ (by decide)).trans (W3_main_v1 m ρ c)
theorem W5_main_v31 : (W5 m ρ c main_v31 : S8192x1.Idx → BitVec 32) = Cert.Spec.trowOf (W0 m ρ c main_arg4) :=
  (W5_of_W3 m ρ c _ (by decide)).trans <| (v31_eq (W2 m ρ c)).trans (congrArg Cert.Spec.trowOf (W2_main_arg4 m ρ c))
theorem W5_main_v32 : (W5 m ρ c main_v32 : S1x8192.Idx → BitVec 32) = Cert.Spec.tcolOf (W0 m ρ c main_arg4) :=
  (W5_of_W3 m ρ c _ (by decide)).trans <| (v32_eq (W2 m ρ c)).trans (congrArg Cert.Spec.tcolOf (W2_main_arg4 m ρ c))

theorem W4_main_v33 : W4 m ρ c main_v33 = Cert.Spec.lsum Cert.Spec.kap (W3 m ρ c main_v0) (W3 m ρ c main_v1) :=
  (exitW_arr _ _ c launch2.win.arr_inj 2).trans (R2.final2 _ c)
theorem W5_main_v35 : (W5 m ρ c main_v35 : S8192x1.Idx → EReal) = fun r => Ideal.div Cert.Spec.one (W4 m ρ c main_v33 r) :=
  funext (v35_apply (W4 m ρ c))

theorem W6_main_v36_0 : W6 m ρ c main_v36_0
    = Cert.Spec.lpos Cert.Spec.kap (W5 m ρ c main_v0) (W5 m ρ c main_v1) (W5 m ρ c main_v35) (W5 m ρ c main_v31) (W5 m ρ c main_v32) :=
  (exitW_arr _ _ c launch3.win.arr_inj 5).trans (R3.final3_5 _ c)
theorem W6_main_v36_1 : W6 m ρ c main_v36_1
    = Cert.Spec.lneg Cert.Spec.kap (W5 m ρ c main_v0) (W5 m ρ c main_v1) (W5 m ρ c main_v35) (W5 m ρ c main_v31) (W5 m ρ c main_v32) :=
  (exitW_arr _ _ c launch3.win.arr_inj 6).trans (R3.final3_6 _ c)

theorem W8_main_v44_0 : W8 m ρ c main_v44_0 = Cert.Spec.klRow (W7 m ρ c main_arg2) (W7 m ρ c main_arg3) :=
  (exitW_arr _ _ c launch4.win.arr_inj 2).trans (R4.final4_2 _ c)
theorem W8_main_v44_1 : W8 m ρ c main_v44_1 = Cert.Spec.klRow (W7 m ρ c main_arg3) (W7 m ρ c main_arg2) :=
  (exitW_arr _ _ c launch4.win.arr_inj 3).trans (R4.final4_3 _ c)

section Result
variable (hrng : ∀ i, 0 ≤ ((m ((c : Thread nD τ).loc main_arg4) : S8192.Idx → BitVec 32) i).toInt ∧ ((m ((c : Thread nD τ).loc main_arg4) : S8192.Idx → BitVec 32) i).toInt < 8192)
include hrng

theorem hrng2 : ∀ i : S8192.Idx, 0 ≤ ((W2 m ρ c main_arg4 : S8192.Idx → BitVec 32) i).toInt ∧ ((W2 m ρ c main_arg4 : S8192.Idx → BitVec 32) i).toInt < 8192 := by
  rw [W2_main_arg4 m ρ c]; exact hrng

theorem W6_main_v19 (i : Fin 8192) : (W6 m ρ c main_v19 : S8192.Idx → EReal) (ix1 i)
    = max ((Cert.Spec.cnt (W0 m ρ c main_arg4) i : ℕ) : EReal) Cert.Spec.one := by
  rw [W6_keep m ρ c main_v19 (by decide), W5_of_W3 m ρ c main_v19 (by decide), ← W2_main_arg4 m ρ c]
  exact v19_apply (W2 m ρ c) (hrng2 m ρ c hrng) (ix1 i)
theorem W6_main_v30 (i : Fin 8192) : (W6 m ρ c main_v30 : S8192.Idx → EReal) (ix1 i)
    = max (Cert.Spec.n8192 - ((Cert.Spec.cnt (W0 m ρ c main_arg4) i : ℕ) : EReal)) Cert.Spec.one := by
  rw [W6_keep m ρ c main_v30 (by decide), W5_of_W3 m ρ c main_v30 (by decide), ← W2_main_arg4 m ρ c]
  exact v30_apply (W2 m ρ c) (hrng2 m ρ c hrng) (ix1 i)

/-- Substitute each intermediate by its defining equation, back to the launch arrays; the closed form then unfolds. -/
theorem kernel_value : W9 m ρ c (Proc.devRef .tc main_v53)
    = fun _ => Cert.Spec.kernelOut (m ((c : Thread nD τ).loc main_arg0)) (m ((c : Thread nD τ).loc main_arg1))
        (m ((c : Thread nD τ).loc main_arg2)) (m ((c : Thread nD τ).loc main_arg3)) (m ((c : Thread nD τ).loc main_arg4)) := by
  funext j
  obtain rfl : j = ix0 := funext fun d => d.elim0
  refine (v53_apply (W8 m ρ c)).trans ?_
  unfold nceOf
  rw [W8_keep m ρ c main_v43 (by decide), show W7 m ρ c main_v43 ix0 = _ from v43_apply _, W6_main_v36_0 m ρ c, W6_main_v36_1 m ρ c,
    funext (W6_main_v19 m ρ c hrng), funext (W6_main_v30 m ρ c hrng), W5_main_v0 m ρ c, W5_main_v1 m ρ c, W5_main_v35 m ρ c,
    W4_main_v33 m ρ c, W3_main_v0 m ρ c, W3_main_v1 m ρ c, W5_main_v31 m ρ c, W5_main_v32 m ρ c,
    W8_main_v44_0 m ρ c, W8_main_v44_1 m ρ c, W7_main_arg2 m ρ c, W7_main_arg3 m ρ c]
  rfl

end Result

end Cert.KernelIdeal.Hand
-- ==== Proof.Ref.RefVal.lean ====
import proofs.«425134_j67723044323788_3_alg».proof.Proof.Ref.ReadP
import proofs.«425134_j67723044323788_3_alg».proof.Proof.Spec.Spec
import Idealize.ShloMosaic.PureOps.Reduce
import Idealize.ShloMosaic.Lib.IdealHost
import Idealize.ShloMosaic.Lib.ValueIdxRank1

noncomputable section

open scoped BigOperators

namespace Cert.ReferenceIdeal.Hand

open Cert.ReferenceIdeal Cert.ReferenceIdeal.Gen Idealize.ShloMosaic Idealize.ShloMosaic.TcCoe Idealize.SL.Sem
  Idealize.ShloMosaic.StableHlo Idealize.ShloMosaic.ValueIdx Cert.ReferenceIdeal.ReadP

theorem neg_inf_word : Ideal.ofBits .f32 0xFF800000#32 = (⊥ : EReal) := by
  simp [Ideal.ofBits, Ideal.ieee]

theorem div_one_word (x : EReal) : Ideal.div x (Ideal.ofBits .f32 0x3F800000#32) = x := by
  rw [Ideal.ofBits_one_f32, ← EReal.coe_one, Ideal.div_coe one_ne_zero]
  simp

theorem uitofp_cmpi_eq (a b : BitVec 32) :
    FloatOps.uitofp (F := Ideal) .f32 (IntOp.cmpi .eq a b) = if a = b then (1 : EReal) else 0 := by
  show (((IntOp.cmpi .eq a b).toNat : ℝ) : EReal) = _
  unfold IntOp.cmpi
  by_cases h : a = b
  · simp [h]
  · simp [h]

theorem lift_row {n m : Nat} (h : (⟨2, ![n, m]⟩ : Shape).Reduces [1] (⟨1, ![n]⟩ : Shape)) (j : (⟨1, ![n]⟩ : Shape).Idx)
    (k : Fin ((⟨2, ![n, m]⟩ : Shape).size 1)) : h.lift j k = ix2 (j 0) (⟨k.val, k.isLt⟩ : Fin m) := by
  funext c; apply Fin.ext
  fin_cases c <;> rfl

theorem hostReduce_max_row {n m : Nat} {u : Shape} (x : (⟨2, ![n, m]⟩ : Shape).Idx → EReal) (init : u.Idx → EReal)
    (h' : (⟨2, ![n, m]⟩ : Shape).ReducesTo [1] (⟨1, ![n]⟩ : Shape)) (h : (⟨2, ![n, m]⟩ : Shape).Reduces [1] (⟨1, ![n]⟩ : Shape))
    (hu : 0 < u.numel) (hinit : init (Shape.Idx.first hu) = ⊥) (j : (⟨1, ![n]⟩ : Shape).Idx) :
    Host.reduce (FloatOps.maximumf (F := Ideal) (φ := .f32)) x init h' hu j
      = (Finset.univ : Finset (Fin m)).fold max ⊥ (fun c => x (ix2 (j 0) c)) := by
  rw [Host.reduce_eq_fold_single (FloatOps.maximumf (F := Ideal) (φ := .f32)) x init h' h hu, hinit]
  have hf : (x ∘ h.lift j) = fun k : Fin m => x (ix2 (j 0) k) := funext fun k => congrArg x (lift_row h j k)
  exact congrArg (fun f => Finset.fold max (⊥ : EReal) f (Finset.univ : Finset (Fin m))) hf

theorem sum_idx1 {n : Nat} (f : (⟨1, ![n]⟩ : Shape).Idx → EReal) : ∑ j, f j = ∑ a : Fin n, f (ix1 a) :=
  (Equiv.sum_comp (idxEquiv1 (n := n)).symm f).symm

theorem v61_eq (x : Cert.Spec.Logit) : val_main_v61 (F := Ideal) x = x := by
  funext i
  rw [val_main_v61_apply, val_main_v60_apply, val_main_cst_17_apply]
  simp only [Ideal.hostDivf_def, Ideal.ofBits_def]
  exact div_one_word _

theorem call0_v2_apply (x : Cert.Spec.Logit) (j : S8192.Idx) :
    val_main_call0_v2 (F := Ideal) x j = Cert.Spec.rmax x (j 0) := by
  rw [val_main_call0_v2_apply, val_main_call0_v1_apply, val_main_call0_cst_0_apply]
  unfold val_main_call0_v0
  rw [v61_eq, hostReduce_max_row x _ reducesTo_S8192x1000_S8192_d1 (by decide) h_S_
    ((val_main_call0_cst_apply _).trans neg_inf_word) j]
  simp only [Ideal.maximumf_def, Ideal.ofBits_def, neg_inf_word, bot_le, max_eq_right]
  rfl

theorem call0_v5_apply (x : Cert.Spec.Logit) (i : S8192x1000.Idx) :
    val_main_call0_v5 (F := Ideal) x i = Cert.Spec.zsh x (i 0) (i 1) := by
  rw [val_main_call0_v5_apply, val_main_call0_v4_apply, val_main_call0_v3_apply, call0_v2_apply, v61_eq]
  simp only [Ideal.subf_def]
  unfold Cert.Spec.zsh
  exact congrArg₂ (fun a b : EReal => a - b) (congrArg x (eq_ix2 i)) rfl

theorem call0_v7_apply (x : Cert.Spec.Logit) (j : S8192.Idx) :
    val_main_call0_v7 (F := Ideal) x j = Cert.Spec.esum x (j 0) := by
  rw [val_main_call0_v7_apply, val_main_call0_cst_1_apply]
  simp only [val_main_call0_v6_apply, call0_v5_apply, Ideal.hostUnary_exp_def, Ideal.ofBits_def, Ideal.ofBits_zero_f32, zero_add]
  rfl

theorem v62_lsm (x : Cert.Spec.Logit) (i : S8192x1000.Idx) :
    val_main_v62 (F := Ideal) x i = Cert.Spec.lsm x (i 0) (i 1) := by
  rw [val_main_v62_apply, val_main_call0_v10_apply, val_main_call0_v9_apply, val_main_call0_v8_apply, call0_v7_apply,
    call0_v5_apply]
  simp only [Ideal.subf_def, Ideal.hostUnary_log_def]
  rfl

theorem v65_eq (x : Cert.Spec.Logit) : val_main_v65 (F := Ideal) x = val_main_v62 (F := Ideal) x := rfl

theorem v70_klR (x y : Cert.Spec.Logit) (i : S_.Idx) : val_main_v70 (F := Ideal) x y i = Cert.Spec.klR x y := by
  rw [val_main_v70_apply, val_main_cst_19_apply]
  simp only [val_main_v69_apply, val_main_v66_apply, val_main_v68_apply, v65_eq, v62_lsm, Ideal.mulf_def, Ideal.subf_def,
    Ideal.hostUnary_exp_def, Ideal.ofBits_def, Ideal.ofBits_zero_f32, zero_add]
  rfl

theorem v75_klR (x y : Cert.Spec.Logit) (i : S_.Idx) : val_main_v75 (F := Ideal) x y i = Cert.Spec.klR y x := by
  rw [val_main_v75_apply, val_main_cst_22_apply]
  simp only [val_main_v74_apply, val_main_v67_apply, val_main_v73_apply, v65_eq, v62_lsm, Ideal.mulf_def, Ideal.subf_def,
    Ideal.hostUnary_exp_def, Ideal.ofBits_def, Ideal.ofBits_zero_f32, zero_add]
  rfl

theorem v79_jsdR (x y : Cert.Spec.Logit) (i : S_.Idx) : val_main_v79 (F := Ideal) x y i = Cert.Spec.jsdR x y := by
  rw [val_main_v79_apply, val_main_v78_apply, val_main_v72_apply, val_main_v77_apply, val_main_v71_apply,
    val_main_v76_apply, v70_klR, v75_klR, val_main_cst_25_apply, val_main_cst_20_apply, val_main_cst_21_apply,
    val_main_cst_23_apply, val_main_cst_24_apply]
  simp only [Ideal.mulf_def, Ideal.addf_def, Ideal.hostDivf_def, Ideal.ofBits_def]
  rfl

theorem idx_main_v1_eq (j : S8192.Idx) (k : Fin 128) : idx_main_v1 j k = ix2 (j 0) k :=
  funext fun a => Fin.ext (by match a with | ⟨0, _⟩ => rfl | ⟨1, _⟩ => rfl)

theorem v7_nrm (x : Cert.Spec.Feat) : val_main_v7 (F := Ideal) x = Cert.Spec.nrm x := by
  funext i
  rw [val_main_v7_apply, val_main_v6_apply, val_main_v5_apply, val_main_v4_apply, val_main_cst_0_apply, val_main_v3_apply,
    val_main_v2_apply, val_main_v1_apply, val_main_cst_apply]
  simp only [val_main_v0_apply, idx_main_v1_eq, Ideal.hostDivf_def, Ideal.maximumf_def, Ideal.hostUnary_sqrt_def,
    Ideal.mulf_def, Ideal.ofBits_def, Ideal.ofBits_zero_f32, zero_add]
  rfl

theorem v15_eq (x : Cert.Spec.Feat) : val_main_v15 (F := Ideal) x = val_main_v7 (F := Ideal) x := rfl

theorem lidx_main_v25_eq (i : S8192x8192.Idx) (k : Fin 128) : lidx_main_v25 i k = ix2 (i 0) k :=
  funext fun a => Fin.ext (by match a with | ⟨0, _⟩ => rfl | ⟨1, _⟩ => rfl)

theorem ridx_main_v25_eq (i : S8192x8192.Idx) (k : Fin 128) : idx_main_v24 (ridx_main_v25 i k) = ix2 (i 1) k :=
  funext fun a => Fin.ext (by match a with | ⟨0, _⟩ => rfl | ⟨1, _⟩ => rfl)

theorem v25_dot (x0 x1 : Cert.Spec.Feat) (i : S8192x8192.Idx) :
    val_main_v25 (F := Ideal) x0 x1 i = Cert.Spec.dot (Cert.Spec.nrm x0) (Cert.Spec.nrm x1) (i 0) (i 1) := by
  rw [val_main_v25_apply]
  simp only [val_main_v24_apply, v15_eq, v7_nrm, lidx_main_v25_eq, ridx_main_v25_eq]
  rfl

theorem v27_sR (x0 x1 : Cert.Spec.Feat) (i : S8192x8192.Idx) :
    val_main_v27 (F := Ideal) x0 x1 i = Cert.Spec.sR (Cert.Spec.nrm x0) (Cert.Spec.nrm x1) (i 0) (i 1) := by
  rw [val_main_v27_apply, v25_dot, val_main_v26_apply, val_main_cst_4_apply]
  simp only [Ideal.hostDivf_def, Ideal.ofBits_def]
  rfl

theorem v30_mR (x0 x1 : Cert.Spec.Feat) (j : S8192.Idx) :
    val_main_v30 (F := Ideal) x0 x1 j = Cert.Spec.mR (Cert.Spec.nrm x0) (Cert.Spec.nrm x1) (j 0) := by
  rw [val_main_v30_apply, val_main_v29_apply, val_main_cst_6_apply]
  unfold val_main_v28
  rw [hostReduce_max_row _ _ reducesTo_S8192x8192_S8192_d1 (by decide) h_S_
    ((val_main_cst_5_apply _).trans neg_inf_word) j]
  simp only [v27_sR, Ideal.maximumf_def, Ideal.ofBits_def, neg_inf_word, bot_le, max_eq_right]
  rfl

theorem v34_eR (x0 x1 : Cert.Spec.Feat) (i : S8192x8192.Idx) :
    val_main_v34 (F := Ideal) x0 x1 i = Cert.Spec.eR (Cert.Spec.nrm x0) (Cert.Spec.nrm x1) (i 0) (i 1) := by
  rw [val_main_v34_apply, val_main_v33_apply, val_main_v32_apply, val_main_v31_apply, v30_mR, v27_sR]
  simp only [Ideal.hostUnary_exp_def, Ideal.subf_def]
  rfl

theorem v35_sum (x0 x1 : Cert.Spec.Feat) (j : S8192.Idx) :
    val_main_v35 (F := Ideal) x0 x1 j = ∑ c : Fin 8192, Cert.Spec.eR (Cert.Spec.nrm x0) (Cert.Spec.nrm x1) (j 0) c := by
  rw [val_main_v35_apply, val_main_cst_7_apply]
  simp only [v34_eR, Ideal.ofBits_def, Ideal.ofBits_zero_f32, zero_add]
  rfl

theorem v38_pR (x0 x1 : Cert.Spec.Feat) (i : S8192x8192.Idx) :
    val_main_v38 (F := Ideal) x0 x1 i = Cert.Spec.pR (Cert.Spec.nrm x0) (Cert.Spec.nrm x1) (i 0) (i 1) := by
  rw [val_main_v38_apply, val_main_v37_apply, val_main_v36_apply, v35_sum, v34_eR]
  simp only [Ideal.hostDivf_def]
  rfl

theorem idx_main_v16_eq (i : S8192x8192.Idx) : idx_main_v16 (idx_main_v18 i) = ix1 (i 0) :=
  funext fun a => Fin.ext (by match a with | ⟨0, _⟩ => rfl)

theorem idx_main_v17_eq (i : S8192x8192.Idx) : idx_main_v17 (idx_main_v19 i) = ix1 (i 1) :=
  funext fun a => Fin.ext (by match a with | ⟨0, _⟩ => rfl)

theorem v21_pm (tg : Cert.Spec.Labels) (i : S8192x8192.Idx) :
    val_main_v21 (F := Ideal) tg i = Cert.Spec.pm tg (i 0) (i 1) := by
  rw [val_main_v21_apply, val_main_v20_apply, val_main_v18_apply, val_main_v19_apply, val_main_v16_apply,
    val_main_v17_apply, uitofp_cmpi_eq, idx_main_v16_eq, idx_main_v17_eq]
  rfl

theorem v23_apply' (tg : Cert.Spec.Labels) (i : S8192x8192.Idx) :
    val_main_v23 (F := Ideal) tg i = Cert.Spec.one - Cert.Spec.pm tg (i 0) (i 1) := by
  rw [val_main_v23_apply, val_main_v22_apply, val_main_cst_3_apply, v21_pm]
  simp only [Ideal.subf_def, Ideal.ofBits_def]

theorem v43_pos (x0 x1 : Cert.Spec.Feat) (tg : Cert.Spec.Labels) (i : S8192x8192.Idx) :
    val_main_v43 (F := Ideal) x0 x1 tg i
      = (-(Ideal.log (Cert.Spec.pR (Cert.Spec.nrm x0) (Cert.Spec.nrm x1) (i 0) (i 1) + Cert.Spec.e10)))
          * Cert.Spec.pm tg (i 0) (i 1) := by
  rw [val_main_v43_apply, val_main_v42_apply, val_main_v41_apply, val_main_v40_apply, v38_pR, val_main_v39_apply,
    val_main_cst_8_apply, v21_pm]
  simp only [Ideal.mulf_def, Ideal.hostNegf_def, Ideal.negf_def, Ideal.hostUnary_log_def, Ideal.addf_def, Ideal.ofBits_def]

theorem v50_neg (x0 x1 : Cert.Spec.Feat) (tg : Cert.Spec.Labels) (i : S8192x8192.Idx) :
    val_main_v50 (F := Ideal) x0 x1 tg i
      = (-(Ideal.log ((Cert.Spec.one - Cert.Spec.pR (Cert.Spec.nrm x0) (Cert.Spec.nrm x1) (i 0) (i 1)) + Cert.Spec.e10)))
          * (Cert.Spec.one - Cert.Spec.pm tg (i 0) (i 1)) := by
  rw [val_main_v50_apply, val_main_v49_apply, val_main_v48_apply, val_main_v47_apply, val_main_v45_apply, v38_pR,
    val_main_v44_apply, val_main_cst_9_apply, val_main_v46_apply, val_main_cst_10_apply, v23_apply']
  simp only [Ideal.mulf_def, Ideal.hostNegf_def, Ideal.negf_def, Ideal.hostUnary_log_def, Ideal.addf_def, Ideal.subf_def,
    Ideal.ofBits_def]

theorem v57_rowR (x0 x1 : Cert.Spec.Feat) (tg : Cert.Spec.Labels) (j : S8192.Idx) :
    val_main_v57 (F := Ideal) x0 x1 tg j = Cert.Spec.rowR (Cert.Spec.nrm x0) (Cert.Spec.nrm x1) tg (j 0) := by
  rw [val_main_v57_apply, val_main_v53_apply, val_main_v56_apply, val_main_v51_apply, val_main_v52_apply,
    val_main_v54_apply, val_main_v55_apply, val_main_cst_11_apply, val_main_cst_12_apply, val_main_cst_13_apply,
    val_main_cst_14_apply]
  simp only [v43_pos, v50_neg, v21_pm, v23_apply', Ideal.addf_def, Ideal.hostDivf_def, Ideal.ofBits_def,
    Ideal.ofBits_zero_f32, zero_add]
  rfl

theorem v59_nceR (x0 x1 : Cert.Spec.Feat) (tg : Cert.Spec.Labels) (i : S_.Idx) :
    val_main_v59 (F := Ideal) x0 x1 tg i = Cert.Spec.nceR (Cert.Spec.nrm x0) (Cert.Spec.nrm x1) tg := by
  rw [val_main_v59_apply, val_main_v58_apply, val_main_cst_15_apply, val_main_cst_16_apply]
  simp only [v57_rowR, Ideal.hostDivf_def, Ideal.ofBits_def, Ideal.ofBits_zero_f32, zero_add]
  rw [sum_idx1]
  rfl

theorem ref_value (a0 a1 : Cert.Spec.Feat) (a2 a3 : Cert.Spec.Logit) (a4 : Cert.Spec.Labels) :
    val_main_v80 (F := Ideal) a0 a1 a2 a3 a4 ix0 = Cert.Spec.refOut a0 a1 a2 a3 a4 := by
  rw [val_main_v80_apply, v59_nceR, v79_jsdR]
  rfl

theorem ref_value_fun (a0 a1 : Cert.Spec.Feat) (a2 a3 : Cert.Spec.Logit) (a4 : Cert.Spec.Labels) :
    val_main_v80 (F := Ideal) a0 a1 a2 a3 a4 = fun _ => Cert.Spec.refOut a0 a1 a2 a3 a4 := by
  funext i
  rw [eq_ix0 i]
  exact ref_value a0 a1 a2 a3 a4

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v80)
          = (fun _ => Cert.Spec.refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono
    (fun _ h c => ⟨(h c).1.trans ((val_main_v80_eq m c).trans (ref_value_fun _ _ _ _ _)), (h c).2⟩)
    (Cert.ReferenceIdeal.ValueP.run (F := Ideal) m ρ)

end Cert.ReferenceIdeal.Hand

end
-- ==== Proof.Alg.lean ====
import proofs.«425134_j67723044323788_3_alg».proof.Defs
import proofs.«425134_j67723044323788_3_alg».proof.Proof.Gen.KernelIdeal
import proofs.«425134_j67723044323788_3_alg».proof.Proof.Gen.ReferenceIdeal
import proofs.«425134_j67723044323788_3_alg».proof.Proof.Gen.Pre_finite_inputs
import proofs.«425134_j67723044323788_3_alg».proof.Proof.Val.PreFacts
import proofs.«425134_j67723044323788_3_alg».proof.Proof.Ref.RunP
import proofs.«425134_j67723044323788_3_alg».proof.Proof.Math.Main
import proofs.«425134_j67723044323788_3_alg».proof.Proof.KI.Run
import proofs.«425134_j67723044323788_3_alg».proof.Proof.Val.KernelVal
import proofs.«425134_j67723044323788_3_alg».proof.Proof.Ref.RefVal
import Idealize.ShloMosaic.Lib.Pipeline.Frame
import Idealize.ShloMosaic.Lib.StableHlo.Run

noncomputable section

namespace Cert.Proof

open Idealize.ShloMosaic Idealize.ShloMosaic.TcCoe Idealize.SL.Sem

theorem inv_nce_t_entry :
    IdealRules.named_const.Statement Cert.KernelIdeal.κ "inv_nce_t" .f32 0x41200000#32 ((134217728 / 13421773 : ℝ) : EReal) :=
  IdealRules.named_const.statement _ _ _ _ _ rfl

theorem preserves : Cert.preserves_Kernel_KernelIdeal :=
  ⟨inv_nce_t_entry, inv_nce_t_entry, inv_nce_t_entry, inv_nce_t_entry⟩

theorem frame_ref : Cert.frame_ReferenceIdeal := fun m ρ _ =>
  (θ_run Cert.ReferenceIdeal.defs _ _).mono (fun _ h c => (h c).2) (Cert.ReferenceIdeal.ValueP.run (F := Ideal) m ρ)

theorem mem_ucRefs (b : Ref Cert.KernelIdeal.sig .tc)
    (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

/-- Each run ends at a closed form of its inputs; the inputs agree, and on finite inputs whose labels are in range and not all equal the two closed forms are one number. -/
theorem algebraic : Cert.algebraic_KernelIdeal_ReferenceIdeal := fun m g m' g' hpre hagree =>
  ⟨_, (θ_run Cert.KernelIdeal.defs _ _).mono (fun _ h c =>
      ⟨(h c _ (mem_ucRefs Cert.KernelIdeal.main_v53 (by decide))).trans
          (Cert.KernelIdeal.Hand.kernel_value m g c (Cert.Pre_finite_inputs.Hand.target_range (hpre c))),
        (h c _ (mem_ucRefs Cert.KernelIdeal.main_arg0 (by decide))).trans (Cert.KernelIdeal.Hand.W9_main_arg0 m g c),
        (h c _ (mem_ucRefs Cert.KernelIdeal.main_arg1 (by decide))).trans (Cert.KernelIdeal.Hand.W9_main_arg1 m g c),
        (h c _ (mem_ucRefs Cert.KernelIdeal.main_arg2 (by decide))).trans (Cert.KernelIdeal.Hand.W9_main_arg2 m g c),
        (h c _ (mem_ucRefs Cert.KernelIdeal.main_arg3 (by decide))).trans (Cert.KernelIdeal.Hand.W9_main_arg3 m g c),
        (h c _ (mem_ucRefs Cert.KernelIdeal.main_arg4 (by decide))).trans (Cert.KernelIdeal.Hand.W9_main_arg4 m g c)⟩)
      (Cert.KernelIdeal.Hand.run_all (F := Ideal) m g),
    (θ_run Cert.ReferenceIdeal.defs _ _).mono (fun _ h c => ⟨(h c).1.trans (funext fun _ => by
        obtain ⟨e0, e1, e2, e3, e4⟩ := hagree c
        have hp := hpre c
        show Cert.Spec.refOut _ _ _ _ _ = Cert.Spec.kernelOut _ _ _ _ _
        rw [e0, e1, e2, e3, e4]
        exact (Cert.Spec.kernelOut_eq_refOut _ _ _ _ _ (Cert.Pre_finite_inputs.Hand.finite0 hp)
          (Cert.Pre_finite_inputs.Hand.finite1 hp) (Cert.Pre_finite_inputs.Hand.finite2 hp)
          (Cert.Pre_finite_inputs.Hand.finite3 hp) (Cert.Pre_finite_inputs.Hand.target_some_ne hp)).symm), (h c).2⟩)
      (Cert.ReferenceIdeal.Hand.ref_run m' g')⟩

end Cert.Proof

end
-- ==== Proof.lean ====
import proofs.«425134_j67723044323788_3_alg».proof.Defs
import proofs.«425134_j67723044323788_3_alg».proof.Proof.Gen.Kernel
import proofs.«425134_j67723044323788_3_alg».proof.Proof.Gen.KernelIdeal
import proofs.«425134_j67723044323788_3_alg».proof.Proof.Gen.ReferenceIdeal
import proofs.«425134_j67723044323788_3_alg».proof.Proof.Gen.Pre_finite_inputs
import proofs.«425134_j67723044323788_3_alg».proof.Proof.K.Run
import proofs.«425134_j67723044323788_3_alg».proof.Proof.KI.Run
import proofs.«425134_j67723044323788_3_alg».proof.Proof.Alg
import Idealize.ShloMosaic.Adequacy
import Idealize.ShloMosaic.Init

noncomputable section

namespace Cert.Proof

open Idealize.ShloMosaic Idealize.SL.Sem

/-- Both kernel programs run their five regions to the end with the inputs untouched, the reference runs its operations, the named reciprocal is the table's entry four times, and the two closed forms agree. -/
theorem claim : Cert.Claim := ⟨Cert.Kernel.Gen.facts, Cert.KernelIdeal.Gen.facts, Cert.ReferenceIdeal.Gen.facts, Cert.Pre_finite_inputs.Gen.facts,
  fun m ρ _ => Cert.Kernel.Hand.frame (F := Bits) m ρ,
  fun m ρ _ => Cert.KernelIdeal.Hand.frame (F := Ideal) m ρ,
  frame_ref,
  preserves,
  algebraic⟩

end Cert.Proof

end
